-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v339) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3x2x600000 : Shape := ⟨3, ![3, 2, 600000]⟩
abbrev S100000 : Shape := ⟨1, ![100000]⟩
abbrev S3x600000 : Shape := ⟨2, ![3, 600000]⟩
abbrev S3x128x128 : Shape := ⟨3, ![3, 128, 128]⟩
abbrev S3x128 : Shape := ⟨2, ![3, 128]⟩
abbrev S2x128 : Shape := ⟨2, ![2, 128]⟩
abbrev S_ : Shape := ⟨0, ![]⟩
abbrev S1x1x600000 : Shape := ⟨3, ![1, 1, 600000]⟩
abbrev S600000 : Shape := ⟨1, ![600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S2x128 : S_.BroadcastsInDim S2x128 (![] : Fin 0 → Fin S2x128.rank)
  reducesTo_S2x128_S_d0_1 : S2x128.ReducesTo [0, 1] S_
  slices_S3x2x600000_S1x1x600000_0_0_0 : S3x2x600000.Slices ![0, 0, 0] S1x1x600000
  shapeCasts_S1x1x600000_S600000 : S1x1x600000.ShapeCasts S600000
  bcast_S_S600000 : S_.BroadcastsInDim S600000 (![] : Fin 0 → Fin S600000.rank)
  reducesTo_S600000_S_d0 : S600000.ReducesTo [0] S_
  slices_S3x2x600000_S1x1x600000_1_0_0 : S3x2x600000.Slices ![1, 0, 0] S1x1x600000
  slices_S3x2x600000_S1x1x600000_2_0_0 : S3x2x600000.Slices ![2, 0, 0] S1x1x600000

variable [Facts]

def fn_part4 {F : FTy → Type} [FloatOps F] (main_arg1 : IVec S3x2x600000 32) (main_v64 : IVec S_ 1) (main_v68 : IVec S600000 1) (main_v69 : IVec S1x1x600000 32) : IVec S_ 1 :=
  let main_v70 : IVec S600000 32 := shapeCast S600000 main_v69 shapeCasts_S1x1x600000_S600000
  let main_c_24 : IVec S_ 32 := constantI S_ 32 100000#32
  let main_v71 : IVec S600000 32 := broadcastInDim S600000 ![] bcast_S_S600000 main_c_24
  let main_v72 : IVec S600000 1 := cmpi .slt main_v70 main_v71
  let main_v73 : IVec S600000 1 := andi main_v68 main_v72
  let main_c_25 : IVec S_ 1 := constantI S_ 1 1#1
  let main_v74 : IVec S_ 1 := (fun x v => Host.reduce IntOp.andi x v reducesTo_S600000_S_d0 h_S_) main_v73 main_c_25
  let main_v75 : IVec S_ 1 := andi main_v64 main_v74
  let main_v76 : IVec S1x1x600000 32 := (extractStridedSlice S1x1x600000 ![2, 0, 0] · slices_S3x2x600000_S1x1x600000_2_0_0) main_arg1
  let main_v77 : IVec S600000 32 := shapeCast S600000 main_v76 shapeCasts_S1x1x600000_S600000
  let main_c_26 : IVec S_ 32 := constantI S_ 32 4294867296#32
  let main_v78 : IVec S600000 32 := broadcastInDim S600000 ![] bcast_S_S600000 main_c_26
  let main_v79 : IVec S600000 1 := cmpi .sge main_v77 main_v78
  let main_v80 : IVec S1x1x600000 32 := (extractStridedSlice S1x1x600000 ![2, 0, 0] · slices_S3x2x600000_S1x1x600000_2_0_0) main_arg1
  let main_v81 : IVec S600000 32 := shapeCast S600000 main_v80 shapeCasts_S1x1x600000_S600000
  let main_c_27 : IVec S_ 32 := constantI S_ 32 100000#32
  let main_v82 : IVec S600000 32 := broadcastInDim S600000 ![] bcast_S_S600000 main_c_27
  let main_v83 : IVec S600000 1 := cmpi .slt main_v81 main_v82
  let main_v84 : IVec S600000 1 := andi main_v79 main_v83
  let main_c_28 : IVec S_ 1 := constantI S_ 1 1#1
  let main_v85 : IVec S_ 1 := (fun x v => Host.reduce IntOp.andi x v reducesTo_S600000_S_d0 h_S_) main_v84 main_c_28
  let main_v86 : IVec S_ 1 := andi main_v75 main_v85
  main_v86

def fn_part3 {F : FTy → Type} [FloatOps F] (main_arg1 : IVec S3x2x600000 32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : IVec S1x1x600000 32 := (extractStridedSlice S1x1x600000 ![0, 0, 0] · slices_S3x2x600000_S1x1x600000_0_0_0) main_arg1
  let main_v55 : IVec S600000 32 := shapeCast S600000 main_v54 shapeCasts_S1x1x600000_S600000
  let main_c_20 : IVec S_ 32 := constantI S_ 32 4294867296#32
  let main_v56 : IVec S600000 32 := broadcastInDim S600000 ![] bcast_S_S600000 main_c_20
  let main_v57 : IVec S600000 1 := cmpi .sge main_v55 main_v56
  let main_v58 : IVec S1x1x600000 32 := (extractStridedSlice S1x1x600000 ![0, 0, 0] · slices_S3x2x600000_S1x1x600000_0_0_0) main_arg1
  let main_v59 : IVec S600000 32 := shapeCast S600000 main_v58 shapeCasts_S1x1x600000_S600000
  let main_c_21 : IVec S_ 32 := constantI S_ 32 100000#32
  let main_v60 : IVec S600000 32 := broadcastInDim S600000 ![] bcast_S_S600000 main_c_21
  let main_v61 : IVec S600000 1 := cmpi .slt main_v59 main_v60
  let main_v62 : IVec S600000 1 := andi main_v57 main_v61
  let main_c_22 : IVec S_ 1 := constantI S_ 1 1#1
  let main_v63 : IVec S_ 1 := (fun x v => Host.reduce IntOp.andi x v reducesTo_S600000_S_d0 h_S_) main_v62 main_c_22
  let main_v64 : IVec S_ 1 := andi main_v53 main_v63
  let main_v65 : IVec S1x1x600000 32 := (extractStridedSlice S1x1x600000 ![1, 0, 0] · slices_S3x2x600000_S1x1x600000_1_0_0) main_arg1
  let main_v66 : IVec S600000 32 := shapeCast S600000 main_v65 shapeCasts_S1x1x600000_S600000
  let main_c_23 : IVec S_ 32 := constantI S_ 32 4294867296#32
  let main_v67 : IVec S600000 32 := broadcastInDim S600000 ![] bcast_S_S600000 main_c_23
  let main_v68 : IVec S600000 1 := cmpi .sge main_v66 main_v67
  let main_v69 : IVec S1x1x600000 32 := (extractStridedSlice S1x1x600000 ![1, 0, 0] · slices_S3x2x600000_S1x1x600000_1_0_0) main_arg1
  fn_part4 (F := F) main_arg1 main_v64 main_v68 main_v69

def fn_part2 {F : FTy → Type} [FloatOps F] (main_arg1 : IVec S3x2x600000 32) (main_arg10 : FVec F S3x128 .f32) (main_arg11 : FVec F S3x128x128 .f32) (main_arg12 : FVec F S2x128 .f32) (main_arg13 : FVec F S2x128 .f32) (main_v33 : IVec S_ 1) : IVec S_ 1 :=
  let main_v34 : FVec F S3x128 .f32 := Host.absf main_arg10
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128x128 .f32 := Host.absf main_arg11
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S2x128 .f32 := Host.absf main_arg12
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128 .f32 := Host.absf main_arg13
  let main_cst_18 : FVec F S_ .f32 := constant S_ .f32 0x7F800000#32
  let main_v50 : FVec F S2x128 .f32 := broadcastInDim S2x128 ![] bcast_S_S2x128 main_cst_18
  fn_part3 (F := F) main_arg1 main_v48 main_v49 main_v50

def fn_part1 {F : FTy → Type} [FloatOps F] (main_arg1 : IVec S3x2x600000 32) (main_arg7 : FVec F S3x128 .f32) (main_arg8 : FVec F S3x128x128 .f32) (main_arg9 : FVec F S3x128x128 .f32) (main_arg10 : FVec F S3x128 .f32) (main_arg11 : FVec F S3x128x128 .f32) (main_arg12 : FVec F S2x128 .f32) (main_arg13 : FVec F S2x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg7
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg8
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128x128 .f32 := Host.absf main_arg9
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg1 main_arg10 main_arg11 main_arg12 main_arg13 main_v33

def fn {F : FTy → Type} [FloatOps F] (main_arg0 : FVec F S100000x128 .f32) (main_arg1 : IVec S3x2x600000 32) (main_arg2 : IVec S100000 32) (main_arg3 : IVec S3x600000 32) (main_arg4 : FVec F S3x128x128 .f32) (main_arg5 : FVec F S3x128 .f32) (main_arg6 : FVec F S3x128x128 .f32) (main_arg7 : FVec F S3x128 .f32) (main_arg8 : FVec F S3x128x128 .f32) (main_arg9 : FVec F S3x128x128 .f32) (main_arg10 : FVec F S3x128 .f32) (main_arg11 : FVec F S3x128x128 .f32) (main_arg12 : FVec F S2x128 .f32) (main_arg13 : FVec F S2x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg4
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg5
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg6
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg1 main_arg7 main_arg8 main_arg9 main_arg10 main_arg11 main_arg12 main_arg13 main_v13 main_v16
-- ==== Kernel.lean ====
abbrev S100000x128 : Shape := ⟨2, ![100000, 128]⟩
abbrev S3x2x600000 : Shape := ⟨3, ![3, 2, 600000]⟩
abbrev S100000 : Shape := ⟨1, ![100000]⟩
abbrev S3x600000 : Shape := ⟨2, ![3, 600000]⟩
abbrev S3x128x128 : Shape := ⟨3, ![3, 128, 128]⟩
abbrev S3x128 : Shape := ⟨2, ![3, 128]⟩
abbrev S2x128 : Shape := ⟨2, ![2, 128]⟩
abbrev S3x100000x128 : Shape := ⟨3, ![3, 100000, 128]⟩
abbrev S2000x128 : Shape := ⟨2, ![2000, 128]⟩
abbrev S3x2000x128 : Shape := ⟨3, ![3, 2000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x2000x128 : Shape := ⟨3, ![1, 2000, 128]⟩
abbrev S1x1x600000 : Shape := ⟨3, ![1, 1, 600000]⟩
abbrev S600000 : Shape := ⟨1, ![600000]⟩
abbrev S1x100000x128 : Shape := ⟨3, ![1, 100000, 128]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S100000x1 : Shape := ⟨2, ![100000, 1]⟩
abbrev S2000 : Shape := ⟨1, ![2000]⟩
abbrev S2000x1 : Shape := ⟨2, ![2000, 1]⟩

abbrev nBuf : Space → Nat
  | .hbm => 296
  | .vmem => 28
  | .smem => 0
  | _ => 0

abbrev hbmTy0_0 (i : Nat) : BufTy := match i % 128 with
  | 0 => ⟨S100000x128, .f32⟩
  | 1 => ⟨S3x2x600000, .i32⟩
  | 2 => ⟨S100000, .i32⟩
  | 3 => ⟨S3x600000, .i32⟩
  | 4 => ⟨S3x128x128, .f32⟩
  | 5 => ⟨S3x128, .f32⟩
  | 6 => ⟨S3x128x128, .f32⟩
  | 7 => ⟨S3x128, .f32⟩
  | 8 => ⟨S3x128x128, .f32⟩
  | 9 => ⟨S3x128x128, .f32⟩
  | 10 => ⟨S3x128, .f32⟩
  | 11 => ⟨S3x128x128, .f32⟩
  | 12 => ⟨S2x128, .f32⟩
  | 13 => ⟨S2x128, .f32⟩
  | 14 => ⟨S3x128x128, .f32⟩
  | 15 => ⟨S3x128x128, .f32⟩
  | 16 => ⟨S3x128x128, .f32⟩
  | 17 => ⟨S3x128x128, .f32⟩
  | 18 => ⟨S3x128x128, .f32⟩
  | 19 => ⟨S3x100000x128, .f32⟩
  | 20 => ⟨S1x1x600000, .i32⟩
  | 21 => ⟨S600000, .i32⟩
  | 22 => ⟨S1x1x600000, .i32⟩
  | 23 => ⟨S600000, .i32⟩
  | 24 => ⟨S1x100000x128, .f32⟩
  | 25 => ⟨S100000x128, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S1, .i32⟩
  | 35 => ⟨S_, .i32⟩
  | 36 => ⟨S600000x1, .i32⟩
  | 37 => ⟨S600000x1, .i1⟩
  | 38 => ⟨S1x1, .i32⟩
  | 39 => ⟨S600000x1, .i32⟩
  | 40 => ⟨S600000x1, .i1⟩
  | 41 => ⟨S600000x1, .i1⟩
  | 42 => ⟨S_, .i1⟩
  | 43 => ⟨S600000, .i1⟩
  | 44 => ⟨S600000x128, .f32⟩
  | 45 => ⟨S600000x128, .i1⟩
  | 46 => ⟨S_, .f32⟩
  | 47 => ⟨S600000x128, .f32⟩
  | 48 => ⟨S600000x128, .f32⟩
  | 49 => ⟨S_, .f32⟩
  | 50 => ⟨S100000x128, .f32⟩
  | 51 => ⟨S600000x1, .i32⟩
  | 52 => ⟨S100000x128, .f32⟩
  | 53 => ⟨S_, .f32⟩
  | 54 => ⟨S600000x1, .f32⟩
  | 55 => ⟨S_, .f32⟩
  | 56 => ⟨S100000x1, .f32⟩
  | 57 => ⟨S600000x1, .i32⟩
  | 58 => ⟨S100000x1, .f32⟩
  | 59 => ⟨S_, .f32⟩
  | 60 => ⟨S100000x1, .f32⟩
  | 61 => ⟨S100000x1, .f32⟩
  | 62 => ⟨S100000x128, .f32⟩
  | 63 => ⟨S100000x128, .f32⟩
  | 64 => ⟨S1x1x600000, .i32⟩
  | 65 => ⟨S600000, .i32⟩
  | 66 => ⟨S1x1x600000, .i32⟩
  | 67 => ⟨S600000, .i32⟩
  | 68 => ⟨S1x100000x128, .f32⟩
  | 69 => ⟨S100000x128, .f32⟩
  | 70 => ⟨S_, .i32⟩
  | 71 => ⟨S600000, .i32⟩
  | 72 => ⟨S600000, .i1⟩
  | 73 => ⟨S_, .i32⟩
  | 74 => ⟨S600000, .i32⟩
  | 75 => ⟨S600000, .i32⟩
  | 76 => ⟨S600000, .i32⟩
  | 77 => ⟨S600000x1, .i32⟩
  | 78 => ⟨S1, .i32⟩
  | 79 => ⟨S_, .i32⟩
  | 80 => ⟨S600000x1, .i32⟩
  | 81 => ⟨S600000x1, .i1⟩
  | 82 => ⟨S1x1, .i32⟩
  | 83 => ⟨S600000x1, .i32⟩
  | 84 => ⟨S600000x1, .i1⟩
  | 85 => ⟨S600000x1, .i1⟩
  | 86 => ⟨S_, .i1⟩
  | 87 => ⟨S600000, .i1⟩
  | 88 => ⟨S600000x128, .f32⟩
  | 89 => ⟨S600000x128, .i1⟩
  | 90 => ⟨S_, .f32⟩
  | 91 => ⟨S600000x128, .f32⟩
  | 92 => ⟨S600000x128, .f32⟩
  | 93 => ⟨S_, .f32⟩
  | 94 => ⟨S100000x128, .f32⟩
  | 95 => ⟨S600000x1, .i32⟩
  | 96 => ⟨S100000x128, .f32⟩
  | 97 => ⟨S_, .f32⟩
  | 98 => ⟨S600000x1, .f32⟩
  | 99 => ⟨S_, .f32⟩
  | 100 => ⟨S100000x1, .f32⟩
  | 101 => ⟨S600000x1, .i32⟩
  | 102 => ⟨S100000x1, .f32⟩
  | 103 => ⟨S_, .f32⟩
  | 104 => ⟨S100000x1, .f32⟩
  | 105 => ⟨S100000x1, .f32⟩
  | 106 => ⟨S100000x128, .f32⟩
  | 107 => ⟨S100000x128, .f32⟩
  | 108 => ⟨S1x1x600000, .i32⟩
  | 109 => ⟨S600000, .i32⟩
  | 110 => ⟨S1x1x600000, .i32⟩
  | 111 => ⟨S600000, .i32⟩
  | 112 => ⟨S1x100000x128, .f32⟩
  | 113 => ⟨S100000x128, .f32⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S1, .i32⟩
  | 123 => ⟨S_, .i32⟩
  | 124 => ⟨S600000x1, .i32⟩
  | 125 => ⟨S600000x1, .i1⟩
  | 126 => ⟨S1x1, .i32⟩
  | 127 => ⟨S600000x1, .i32⟩
  | _ => ⟨S100000x128, .f32⟩

abbrev hbmTy0_1 (i : Nat) : BufTy := match i % 128 with
  | 0 => ⟨S600000x1, .i1⟩
  | 1 => ⟨S600000x1, .i1⟩
  | 2 => ⟨S_, .i1⟩
  | 3 => ⟨S600000, .i1⟩
  | 4 => ⟨S600000x128, .f32⟩
  | 5 => ⟨S600000x128, .i1⟩
  | 6 => ⟨S_, .f32⟩
  | 7 => ⟨S600000x128, .f32⟩
  | 8 => ⟨S600000x128, .f32⟩
  | 9 => ⟨S_, .f32⟩
  | 10 => ⟨S100000x128, .f32⟩
  | 11 => ⟨S600000x1, .i32⟩
  | 12 => ⟨S100000x128, .f32⟩
  | 13 => ⟨S_, .f32⟩
  | 14 => ⟨S600000x1, .f32⟩
  | 15 => ⟨S_, .f32⟩
  | 16 => ⟨S100000x1, .f32⟩
  | 17 => ⟨S600000x1, .i32⟩
  | 18 => ⟨S100000x1, .f32⟩
  | 19 => ⟨S_, .f32⟩
  | 20 => ⟨S100000x1, .f32⟩
  | 21 => ⟨S100000x1, .f32⟩
  | 22 => ⟨S100000x128, .f32⟩
  | 23 => ⟨S100000x128, .f32⟩
  | 24 => ⟨S1x100000x128, .f32⟩
  | 25 => ⟨S1x100000x128, .f32⟩
  | 26 => ⟨S1x100000x128, .f32⟩
  | 27 => ⟨S3x100000x128, .f32⟩
  | 28 => ⟨S1x128, .f32⟩
  | 29 => ⟨S128, .f32⟩
  | 30 => ⟨S1x128, .f32⟩
  | 31 => ⟨S128, .f32⟩
  | 32 => ⟨S100000x128, .f32⟩
  | 33 => ⟨S1x1x600000, .i32⟩
  | 34 => ⟨S600000, .i32⟩
  | 35 => ⟨S1x1x600000, .i32⟩
  | 36 => ⟨S600000, .i32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S1, .i32⟩
  | 46 => ⟨S_, .i32⟩
  | 47 => ⟨S600000x1, .i32⟩
  | 48 => ⟨S600000x1, .i1⟩
  | 49 => ⟨S1x1, .i32⟩
  | 50 => ⟨S600000x1, .i32⟩
  | 51 => ⟨S600000x1, .i1⟩
  | 52 => ⟨S600000x1, .i1⟩
  | 53 => ⟨S_, .i1⟩
  | 54 => ⟨S600000, .i1⟩
  | 55 => ⟨S600000x128, .f32⟩
  | 56 => ⟨S600000x128, .i1⟩
  | 57 => ⟨S_, .f32⟩
  | 58 => ⟨S600000x128, .f32⟩
  | 59 => ⟨S600000x128, .f32⟩
  | 60 => ⟨S_, .f32⟩
  | 61 => ⟨S100000x128, .f32⟩
  | 62 => ⟨S600000x1, .i32⟩
  | 63 => ⟨S100000x128, .f32⟩
  | 64 => ⟨S_, .f32⟩
  | 65 => ⟨S600000x1, .f32⟩
  | 66 => ⟨S_, .f32⟩
  | 67 => ⟨S100000x1, .f32⟩
  | 68 => ⟨S600000x1, .i32⟩
  | 69 => ⟨S100000x1, .f32⟩
  | 70 => ⟨S_, .f32⟩
  | 71 => ⟨S100000x1, .f32⟩
  | 72 => ⟨S100000x1, .f32⟩
  | 73 => ⟨S100000x128, .f32⟩
  | 74 => ⟨S100000x128, .f32⟩
  | 75 => ⟨S1x1x600000, .i32⟩
  | 76 => ⟨S600000, .i32⟩
  | 77 => ⟨S1x1x600000, .i32⟩
  | 78 => ⟨S600000, .i32⟩
  | 79 => ⟨S_, .i32⟩
  | 80 => ⟨S600000, .i32⟩
  | 81 => ⟨S600000, .i1⟩
  | 82 => ⟨S_, .i32⟩
  | 83 => ⟨S600000, .i32⟩
  | 84 => ⟨S600000, .i32⟩
  | 85 => ⟨S600000, .i32⟩
  | 86 => ⟨S600000x1, .i32⟩
  | 87 => ⟨S1, .i32⟩
  | 88 => ⟨S_, .i32⟩
  | 89 => ⟨S600000x1, .i32⟩
  | 90 => ⟨S600000x1, .i1⟩
  | 91 => ⟨S1x1, .i32⟩
  | 92 => ⟨S600000x1, .i32⟩
  | 93 => ⟨S600000x1, .i1⟩
  | 94 => ⟨S600000x1, .i1⟩
  | 95 => ⟨S_, .i1⟩
  | 96 => ⟨S600000, .i1⟩
  | 97 => ⟨S600000x128, .f32⟩
  | 98 => ⟨S600000x128, .i1⟩
  | 99 => ⟨S_, .f32⟩
  | 100 => ⟨S600000x128, .f32⟩
  | 101 => ⟨S600000x128, .f32⟩
  | 102 => ⟨S_, .f32⟩
  | 103 => ⟨S100000x128, .f32⟩
  | 104 => ⟨S600000x1, .i32⟩
  | 105 => ⟨S100000x128, .f32⟩
  | 106 => ⟨S_, .f32⟩
  | 107 => ⟨S600000x1, .f32⟩
  | 108 => ⟨S_, .f32⟩
  | 109 => ⟨S100000x1, .f32⟩
  | 110 => ⟨S600000x1, .i32⟩
  | 111 => ⟨S100000x1, .f32⟩
  | 112 => ⟨S_, .f32⟩
  | 113 => ⟨S100000x1, .f32⟩
  | 114 => ⟨S100000x1, .f32⟩
  | 115 => ⟨S100000x128, .f32⟩
  | 116 => ⟨S100000x128, .f32⟩
  | 117 => ⟨S1x1x600000, .i32⟩
  | 118 => ⟨S600000, .i32⟩
  | 119 => ⟨S1x1x600000, .i32⟩
  | 120 => ⟨S600000, .i32⟩
  | 121 => ⟨S_, .i32⟩
  | 122 => ⟨S600000, .i32⟩
  | 123 => ⟨S600000, .i1⟩
  | 124 => ⟨S_, .i32⟩
  | 125 => ⟨S600000, .i32⟩
  | 126 => ⟨S600000, .i32⟩
  | 127 => ⟨S600000, .i32⟩
  | _ => ⟨S100000x128, .f32⟩

abbrev hbmTy0_2 (i : Nat) : BufTy := match i % 128 with
  | 0 => ⟨S600000x1, .i32⟩
  | 1 => ⟨S1, .i32⟩
  | 2 => ⟨S_, .i32⟩
  | 3 => ⟨S600000x1, .i32⟩
  | 4 => ⟨S600000x1, .i1⟩
  | 5 => ⟨S1x1, .i32⟩
  | 6 => ⟨S600000x1, .i32⟩
  | 7 => ⟨S600000x1, .i1⟩
  | 8 => ⟨S600000x1, .i1⟩
  | 9 => ⟨S_, .i1⟩
  | 10 => ⟨S600000, .i1⟩
  | 11 => ⟨S600000x128, .f32⟩
  | 12 => ⟨S600000x128, .i1⟩
  | 13 => ⟨S_, .f32⟩
  | 14 => ⟨S600000x128, .f32⟩
  | 15 => ⟨S600000x128, .f32⟩
  | 16 => ⟨S_, .f32⟩
  | 17 => ⟨S100000x128, .f32⟩
  | 18 => ⟨S600000x1, .i32⟩
  | 19 => ⟨S100000x128, .f32⟩
  | 20 => ⟨S_, .f32⟩
  | 21 => ⟨S600000x1, .f32⟩
  | 22 => ⟨S_, .f32⟩
  | 23 => ⟨S100000x1, .f32⟩
  | 24 => ⟨S600000x1, .i32⟩
  | 25 => ⟨S100000x1, .f32⟩
  | 26 => ⟨S_, .f32⟩
  | 27 => ⟨S100000x1, .f32⟩
  | 28 => ⟨S100000x1, .f32⟩
  | 29 => ⟨S100000x128, .f32⟩
  | 30 => ⟨S100000x128, .f32⟩
  | 31 => ⟨S1x100000x128, .f32⟩
  | 32 => ⟨S1x100000x128, .f32⟩
  | 33 => ⟨S1x100000x128, .f32⟩
  | 34 => ⟨S3x100000x128, .f32⟩
  | 35 => ⟨S1x128, .f32⟩
  | 36 => ⟨S128, .f32⟩
  | 37 => ⟨S1x128, .f32⟩
  | 38 => ⟨S128, .f32⟩
  | 39 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S3x128x128, .f32⟩
  | .local _ .vmem, ⟨3, _⟩ => ⟨S3x128, .f32⟩
  | .local _ .vmem, ⟨4, _⟩ => ⟨S3x2000x128, .f32⟩
  | .local _ .vmem, ⟨5, _⟩ => ⟨S3x2000x128, .f32⟩
  | .local _ .vmem, ⟨6, _⟩ => ⟨S3x2000x128, .f32⟩
  | .local _ .vmem, ⟨7, _⟩ => ⟨S3x2000x128, .f32⟩
  | .local _ .vmem, ⟨8, _⟩ => ⟨S2000x128, .f32⟩
  | .local _ .vmem, ⟨9, _⟩ => ⟨S2000x128, .f32⟩
  | .local _ .vmem, ⟨10, _⟩ => ⟨S3x128x128, .f32⟩
  | .local _ .vmem, ⟨11, _⟩ => ⟨S3x128, .f32⟩
  | .local _ .vmem, ⟨12, _⟩ => ⟨S3x128x128, .f32⟩
  | .local _ .vmem, ⟨13, _⟩ => ⟨S128, .f32⟩
  | .local _ .vmem, ⟨14, _⟩ => ⟨S128, .f32⟩
  | .local _ .vmem, ⟨15, _⟩ => ⟨S2000x128, .f32⟩
  | .local _ .vmem, ⟨16, _⟩ => ⟨S2000x128, .f32⟩
  | .local _ .vmem, ⟨17, _⟩ => ⟨S3x2000x128, .f32⟩
  | .local _ .vmem, ⟨18, _⟩ => ⟨S3x2000x128, .f32⟩
  | .local _ .vmem, ⟨19, _⟩ => ⟨S2000x128, .f32⟩
  | .local _ .vmem, ⟨20, _⟩ => ⟨S2000x128, .f32⟩
  | .local _ .vmem, ⟨21, _⟩ => ⟨S3x128x128, .f32⟩
  | .local _ .vmem, ⟨22, _⟩ => ⟨S3x128, .f32⟩
  | .local _ .vmem, ⟨23, _⟩ => ⟨S3x128x128, .f32⟩
  | .local _ .vmem, ⟨24, _⟩ => ⟨S128, .f32⟩
  | .local _ .vmem, ⟨25, _⟩ => ⟨S128, .f32⟩
  | .local _ .vmem, ⟨26, _⟩ => ⟨S2000x128, .f32⟩
  | .local _ .vmem, ⟨27, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v12 : Ref sig .tc := ⟨.hbm, 48, rfl⟩
abbrev main_cst : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_cst_0 : Ref sig .tc := ⟨.hbm, 53, rfl⟩
abbrev main_v16 : Ref sig .tc := ⟨.hbm, 54, rfl⟩
abbrev main_cst_1 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_cst_2 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_call1_c : Ref sig .tc := ⟨.hbm, 70, rfl⟩
abbrev main_call1_v0 : Ref sig .tc := ⟨.hbm, 71, rfl⟩
abbrev main_call1_v1 : Ref sig .tc := ⟨.hbm, 72, rfl⟩
abbrev main_call1_c_0 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_c_1 : Ref sig .tc := ⟨.hbm, 78, rfl⟩
abbrev main_call1_c_2 : Ref sig .tc := ⟨.hbm, 79, rfl⟩
abbrev main_call1_v6 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_c_3 : Ref sig .tc := ⟨.hbm, 86, rfl⟩
abbrev main_call1_v12 : Ref sig .tc := ⟨.hbm, 87, rfl⟩
abbrev main_call1_v13 : Ref sig .tc := ⟨.hbm, 88, rfl⟩
abbrev main_call1_v14 : Ref sig .tc := ⟨.hbm, 89, rfl⟩
abbrev main_call1_cst : Ref sig .tc := ⟨.hbm, 90, rfl⟩
abbrev main_call1_v15 : Ref sig .tc := ⟨.hbm, 91, rfl⟩
abbrev main_v30 : Ref sig .tc := ⟨.hbm, 92, rfl⟩
abbrev main_cst_3 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_cst_4 : Ref sig .tc := ⟨.hbm, 97, rfl⟩
abbrev main_v34 : Ref sig .tc := ⟨.hbm, 98, rfl⟩
abbrev main_cst_5 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_cst_6 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_call2_c : Ref sig .tc := ⟨.hbm, 114, rfl⟩
abbrev main_call2_v0 : Ref sig .tc := ⟨.hbm, 115, rfl⟩
abbrev main_call2_v1 : Ref sig .tc := ⟨.hbm, 116, rfl⟩
abbrev main_call2_c_0 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_c_1 : Ref sig .tc := ⟨.hbm, 122, rfl⟩
abbrev main_call2_c_2 : Ref sig .tc := ⟨.hbm, 123, rfl⟩
abbrev main_call2_v6 : Ref sig .tc := ⟨.hbm, 124, rfl⟩
abbrev main_call2_v7 : Ref sig .tc := ⟨.hbm, 125, rfl⟩
abbrev main_call2_v8 : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_c_3 : Ref sig .tc := ⟨.hbm, 130, rfl⟩
abbrev main_call2_v12 : Ref sig .tc := ⟨.hbm, 131, rfl⟩
abbrev main_call2_v13 : Ref sig .tc := ⟨.hbm, 132, rfl⟩
abbrev main_call2_v14 : Ref sig .tc := ⟨.hbm, 133, rfl⟩
abbrev main_call2_cst : Ref sig .tc := ⟨.hbm, 134, rfl⟩
abbrev main_call2_v15 : Ref sig .tc := ⟨.hbm, 135, rfl⟩
abbrev main_v48 : Ref sig .tc := ⟨.hbm, 136, rfl⟩
abbrev main_cst_7 : Ref sig .tc := ⟨.hbm, 137, rfl⟩
abbrev main_v49 : Ref sig .tc := ⟨.hbm, 138, rfl⟩
abbrev main_v50 : Ref sig .tc := ⟨.hbm, 139, rfl⟩
abbrev main_v51 : Ref sig .tc := ⟨.hbm, 140, rfl⟩
abbrev main_cst_8 : Ref sig .tc := ⟨.hbm, 141, rfl⟩
abbrev main_v52 : Ref sig .tc := ⟨.hbm, 142, rfl⟩
abbrev main_cst_9 : Ref sig .tc := ⟨.hbm, 143, rfl⟩
abbrev main_v53 : Ref sig .tc := ⟨.hbm, 144, rfl⟩
abbrev main_v54 : Ref sig .tc := ⟨.hbm, 145, rfl⟩
abbrev main_v55 : Ref sig .tc := ⟨.hbm, 146, rfl⟩
abbrev main_cst_10 : Ref sig .tc := ⟨.hbm, 147, rfl⟩
abbrev main_v56 : Ref sig .tc := ⟨.hbm, 148, rfl⟩
abbrev main_v57 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_v68 : Ref sig .tc := ⟨.hbm, 160, rfl⟩
abbrev main_v69 : Ref sig .tc := ⟨.hbm, 161, rfl⟩
abbrev main_v70 : Ref sig .tc := ⟨.hbm, 162, rfl⟩
abbrev main_v71 : Ref sig .tc := ⟨.hbm, 163, rfl⟩
abbrev main_v72 : Ref sig .tc := ⟨.hbm, 164, rfl⟩
abbrev main_call3_c : Ref sig .tc := ⟨.hbm, 165, rfl⟩
abbrev main_call3_v0 : Ref sig .tc := ⟨.hbm, 166, rfl⟩
abbrev main_call3_v1 : Ref sig .tc := ⟨.hbm, 167, rfl⟩
abbrev main_call3_c_0 : Ref sig .tc := ⟨.hbm, 168, rfl⟩
abbrev main_call3_v2 : Ref sig .tc := ⟨.hbm, 169, rfl⟩
abbrev main_call3_v3 : Ref sig .tc := ⟨.hbm, 170, rfl⟩
abbrev main_call3_v4 : Ref sig .tc := ⟨.hbm, 171, rfl⟩
abbrev main_call3_v5 : Ref sig .tc := ⟨.hbm, 172, rfl⟩
abbrev main_call3_c_1 : Ref sig .tc := ⟨.hbm, 173, rfl⟩
abbrev main_call3_c_2 : Ref sig .tc := ⟨.hbm, 174, rfl⟩
abbrev main_call3_v6 : Ref sig .tc := ⟨.hbm, 175, rfl⟩
abbrev main_call3_v7 : Ref sig .tc := ⟨.hbm, 176, rfl⟩
abbrev main_call3_v8 : Ref sig .tc := ⟨.hbm, 177, rfl⟩
abbrev main_call3_v9 : Ref sig .tc := ⟨.hbm, 178, rfl⟩
abbrev main_call3_v10 : Ref sig .tc := ⟨.hbm, 179, rfl⟩
abbrev main_call3_v11 : Ref sig .tc := ⟨.hbm, 180, rfl⟩
abbrev main_call3_c_3 : Ref sig .tc := ⟨.hbm, 181, rfl⟩
abbrev main_call3_v12 : Ref sig .tc := ⟨.hbm, 182, rfl⟩
abbrev main_call3_v13 : Ref sig .tc := ⟨.hbm, 183, rfl⟩
abbrev main_call3_v14 : Ref sig .tc := ⟨.hbm, 184, rfl⟩
abbrev main_call3_cst : Ref sig .tc := ⟨.hbm, 185, rfl⟩
abbrev main_call3_v15 : Ref sig .tc := ⟨.hbm, 186, rfl⟩
abbrev main_v73 : Ref sig .tc := ⟨.hbm, 187, rfl⟩
abbrev main_cst_11 : Ref sig .tc := ⟨.hbm, 188, rfl⟩
abbrev main_v74 : Ref sig .tc := ⟨.hbm, 189, rfl⟩
abbrev main_v75 : Ref sig .tc := ⟨.hbm, 190, rfl⟩
abbrev main_v76 : Ref sig .tc := ⟨.hbm, 191, rfl⟩
abbrev main_cst_12 : Ref sig .tc := ⟨.hbm, 192, rfl⟩
abbrev main_v77 : Ref sig .tc := ⟨.hbm, 193, rfl⟩
abbrev main_cst_13 : Ref sig .tc := ⟨.hbm, 194, rfl⟩
abbrev main_v78 : Ref sig .tc := ⟨.hbm, 195, rfl⟩
abbrev main_v79 : Ref sig .tc := ⟨.hbm, 196, rfl⟩
abbrev main_v80 : Ref sig .tc := ⟨.hbm, 197, rfl⟩
abbrev main_cst_14 : Ref sig .tc := ⟨.hbm, 198, rfl⟩
abbrev main_v81 : Ref sig .tc := ⟨.hbm, 199, rfl⟩
abbrev main_v82 : Ref sig .tc := ⟨.hbm, 200, rfl⟩
abbrev main_v83 : Ref sig .tc := ⟨.hbm, 201, rfl⟩
abbrev main_v84 : Ref sig .tc := ⟨.hbm, 202, rfl⟩
abbrev main_v85 : Ref sig .tc := ⟨.hbm, 203, rfl⟩
abbrev main_v86 : Ref sig .tc := ⟨.hbm, 204, rfl⟩
abbrev main_v87 : Ref sig .tc := ⟨.hbm, 205, rfl⟩
abbrev main_v88 : Ref sig .tc := ⟨.hbm, 206, rfl⟩
abbrev main_call4_c : Ref sig .tc := ⟨.hbm, 207, rfl⟩
abbrev main_call4_v0 : Ref sig .tc := ⟨.hbm, 208, rfl⟩
abbrev main_call4_v1 : Ref sig .tc := ⟨.hbm, 209, rfl⟩
abbrev main_call4_c_0 : Ref sig .tc := ⟨.hbm, 210, rfl⟩
abbrev main_call4_v2 : Ref sig .tc := ⟨.hbm, 211, rfl⟩
abbrev main_call4_v3 : Ref sig .tc := ⟨.hbm, 212, rfl⟩
abbrev main_call4_v4 : Ref sig .tc := ⟨.hbm, 213, rfl⟩
abbrev main_call4_v5 : Ref sig .tc := ⟨.hbm, 214, rfl⟩
abbrev main_call4_c_1 : Ref sig .tc := ⟨.hbm, 215, rfl⟩
abbrev main_call4_c_2 : Ref sig .tc := ⟨.hbm, 216, rfl⟩
abbrev main_call4_v6 : Ref sig .tc := ⟨.hbm, 217, rfl⟩
abbrev main_call4_v7 : Ref sig .tc := ⟨.hbm, 218, rfl⟩
abbrev main_call4_v8 : Ref sig .tc := ⟨.hbm, 219, rfl⟩
abbrev main_call4_v9 : Ref sig .tc := ⟨.hbm, 220, rfl⟩
abbrev main_call4_v10 : Ref sig .tc := ⟨.hbm, 221, rfl⟩
abbrev main_call4_v11 : Ref sig .tc := ⟨.hbm, 222, rfl⟩
abbrev main_call4_c_3 : Ref sig .tc := ⟨.hbm, 223, rfl⟩
abbrev main_call4_v12 : Ref sig .tc := ⟨.hbm, 224, rfl⟩
abbrev main_call4_v13 : Ref sig .tc := ⟨.hbm, 225, rfl⟩
abbrev main_call4_v14 : Ref sig .tc := ⟨.hbm, 226, rfl⟩
abbrev main_call4_cst : Ref sig .tc := ⟨.hbm, 227, rfl⟩
abbrev main_call4_v15 : Ref sig .tc := ⟨.hbm, 228, rfl⟩
abbrev main_v89 : Ref sig .tc := ⟨.hbm, 229, rfl⟩
abbrev main_cst_15 : Ref sig .tc := ⟨.hbm, 230, rfl⟩
abbrev main_v90 : Ref sig .tc := ⟨.hbm, 231, rfl⟩
abbrev main_v91 : Ref sig .tc := ⟨.hbm, 232, rfl⟩
abbrev main_v92 : Ref sig .tc := ⟨.hbm, 233, rfl⟩
abbrev main_cst_16 : Ref sig .tc := ⟨.hbm, 234, rfl⟩
abbrev main_v93 : Ref sig .tc := ⟨.hbm, 235, rfl⟩
abbrev main_cst_17 : Ref sig .tc := ⟨.hbm, 236, rfl⟩
abbrev main_v94 : Ref sig .tc := ⟨.hbm, 237, rfl⟩
abbrev main_v95 : Ref sig .tc := ⟨.hbm, 238, rfl⟩
abbrev main_v96 : Ref sig .tc := ⟨.hbm, 239, rfl⟩
abbrev main_cst_18 : Ref sig .tc := ⟨.hbm, 240, rfl⟩
abbrev main_v97 : Ref sig .tc := ⟨.hbm, 241, rfl⟩
abbrev main_v98 : Ref sig .tc := ⟨.hbm, 242, rfl⟩
abbrev main_v99 : Ref sig .tc := ⟨.hbm, 243, rfl⟩
abbrev main_v100 : Ref sig .tc := ⟨.hbm, 244, rfl⟩
abbrev main_v101 : Ref sig .tc := ⟨.hbm, 245, rfl⟩
abbrev main_v102 : Ref sig .tc := ⟨.hbm, 246, rfl⟩
abbrev main_v103 : Ref sig .tc := ⟨.hbm, 247, rfl⟩
abbrev main_v104 : Ref sig .tc := ⟨.hbm, 248, rfl⟩
abbrev main_call5_c : Ref sig .tc := ⟨.hbm, 249, rfl⟩
abbrev main_call5_v0 : Ref sig .tc := ⟨.hbm, 250, rfl⟩
abbrev main_call5_v1 : Ref sig .tc := ⟨.hbm, 251, rfl⟩
abbrev main_call5_c_0 : Ref sig .tc := ⟨.hbm, 252, rfl⟩
abbrev main_call5_v2 : Ref sig .tc := ⟨.hbm, 253, rfl⟩
abbrev main_call5_v3 : Ref sig .tc := ⟨.hbm, 254, rfl⟩
abbrev main_call5_v4 : Ref sig .tc := ⟨.hbm, 255, rfl⟩
abbrev main_call5_v5 : Ref sig .tc := ⟨.hbm, 256, rfl⟩
abbrev main_call5_c_1 : Ref sig .tc := ⟨.hbm, 257, rfl⟩
abbrev main_call5_c_2 : Ref sig .tc := ⟨.hbm, 258, rfl⟩
abbrev main_call5_v6 : Ref sig .tc := ⟨.hbm, 259, rfl⟩
abbrev main_call5_v7 : Ref sig .tc := ⟨.hbm, 260, rfl⟩
abbrev main_call5_v8 : Ref sig .tc := ⟨.hbm, 261, rfl⟩
abbrev main_call5_v9 : Ref sig .tc := ⟨.hbm, 262, rfl⟩
abbrev main_call5_v10 : Ref sig .tc := ⟨.hbm, 263, rfl⟩
abbrev main_call5_v11 : Ref sig .tc := ⟨.hbm, 264, rfl⟩
abbrev main_call5_c_3 : Ref sig .tc := ⟨.hbm, 265, rfl⟩
abbrev main_call5_v12 : Ref sig .tc := ⟨.hbm, 266, rfl⟩
abbrev main_call5_v13 : Ref sig .tc := ⟨.hbm, 267, rfl⟩
abbrev main_call5_v14 : Ref sig .tc := ⟨.hbm, 268, rfl⟩
abbrev main_call5_cst : Ref sig .tc := ⟨.hbm, 269, rfl⟩
abbrev main_call5_v15 : Ref sig .tc := ⟨.hbm, 270, rfl⟩
abbrev main_v105 : Ref sig .tc := ⟨.hbm, 271, rfl⟩
abbrev main_cst_19 : Ref sig .tc := ⟨.hbm, 272, rfl⟩
abbrev main_v106 : Ref sig .tc := ⟨.hbm, 273, rfl⟩
abbrev main_v107 : Ref sig .tc := ⟨.hbm, 274, rfl⟩
abbrev main_v108 : Ref sig .tc := ⟨.hbm, 275, rfl⟩
abbrev main_cst_20 : Ref sig .tc := ⟨.hbm, 276, rfl⟩
abbrev main_v109 : Ref sig .tc := ⟨.hbm, 277, rfl⟩
abbrev main_cst_21 : Ref sig .tc := ⟨.hbm, 278, rfl⟩
abbrev main_v110 : Ref sig .tc := ⟨.hbm, 279, rfl⟩
abbrev main_v111 : Ref sig .tc := ⟨.hbm, 280, rfl⟩
abbrev main_v112 : Ref sig .tc := ⟨.hbm, 281, rfl⟩
abbrev main_cst_22 : Ref sig .tc := ⟨.hbm, 282, rfl⟩
abbrev main_v113 : Ref sig .tc := ⟨.hbm, 283, rfl⟩
abbrev main_v114 : Ref sig .tc := ⟨.hbm, 284, rfl⟩
abbrev main_v115 : Ref sig .tc := ⟨.hbm, 285, rfl⟩
abbrev main_v116 : Ref sig .tc := ⟨.hbm, 286, rfl⟩
abbrev main_v117 : Ref sig .tc := ⟨.hbm, 287, rfl⟩
abbrev main_v118 : Ref sig .tc := ⟨.hbm, 288, rfl⟩
abbrev main_v119 : Ref sig .tc := ⟨.hbm, 289, rfl⟩
abbrev main_v120 : Ref sig .tc := ⟨.hbm, 290, rfl⟩
abbrev main_v121 : Ref sig .tc := ⟨.hbm, 291, rfl⟩
abbrev main_v122 : Ref sig .tc := ⟨.hbm, 292, rfl⟩
abbrev main_v123 : Ref sig .tc := ⟨.hbm, 293, rfl⟩
abbrev main_v124 : Ref sig .tc := ⟨.hbm, 294, rfl⟩
abbrev main_v125 : Ref sig .tc := ⟨.hbm, 295, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3x2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3x2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S3x128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S3x128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  transposes_S3x128x128_S3x128x128_0_2_1 : S3x128x128.Transposes [0, 2, 1] S3x128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  shapeCasts_S128_S1x128 : S128.ShapeCasts S1x128
  broadcasts_S1x128_S2000x128 : S1x128.Broadcasts S2000x128
  inb_S3x2000x128_S1x2000x128_0_0_0 : ∀ a, (![0, 0, 0] : Fin 3 → Nat) a + S1x2000x128.size a ≤ S3x2000x128.size a
  h_S1x2000x128 : 0 < S1x2000x128.numel
  shapeCasts_S1x2000x128_S2000x128 : S1x2000x128.ShapeCasts S2000x128
  shapeCasts_S2000x128_S1x2000x128 : S2000x128.ShapeCasts S1x2000x128
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  inb_S3x2000x128_S1x2000x128_1_0_0 : ∀ a, (![1, 0, 0] : Fin 3 → Nat) a + S1x2000x128.size a ≤ S3x2000x128.size a
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  inb_S3x2000x128_S1x2000x128_2_0_0 : ∀ a, (![2, 0, 0] : Fin 3 → Nat) a + S1x2000x128.size a ≤ S3x2000x128.size a
  slices_S3x2x600000_S1x1x600000_0_0_0 : S3x2x600000.Slices ![0, 0, 0] S1x1x600000
  shapeCasts_S1x1x600000_S600000 : S1x1x600000.ShapeCasts S600000
  slices_S3x2x600000_S1x1x600000_0_1_0 : S3x2x600000.Slices ![0, 1, 0] S1x1x600000
  slices_S3x100000x128_S1x100000x128_0_0_0 : S3x100000x128.Slices ![0, 0, 0] S1x100000x128
  shapeCasts_S1x100000x128_S100000x128 : S1x100000x128.ShapeCasts S100000x128
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S3x2x600000_S1x1x600000_1_0_0 : S3x2x600000.Slices ![1, 0, 0] S1x1x600000
  slices_S3x2x600000_S1x1x600000_1_1_0 : S3x2x600000.Slices ![1, 1, 0] S1x1x600000
  slices_S3x100000x128_S1x100000x128_1_0_0 : S3x100000x128.Slices ![1, 0, 0] S1x100000x128
  slices_S3x2x600000_S1x1x600000_2_0_0 : S3x2x600000.Slices ![2, 0, 0] S1x1x600000
  slices_S3x2x600000_S1x1x600000_2_1_0 : S3x2x600000.Slices ![2, 1, 0] S1x1x600000
  slices_S3x100000x128_S1x100000x128_2_0_0 : S3x100000x128.Slices ![2, 0, 0] S1x100000x128
  bcast_S100000x128_S1x100000x128_1_2 : S100000x128.BroadcastsInDim S1x100000x128 (![1, 2] : Fin 2 → Fin S1x100000x128.rank)
  concatenates_S1x100000x128_S1x100000x128_S1x100000x128_S3x100000x128_d0 : Shape.Concatenates [S1x100000x128, S1x100000x128, S1x100000x128] S3x100000x128 0
  slices_S2x128_S1x128_0_0 : S2x128.Slices ![0, 0] S1x128
  reduces_S2000x128_S2000 : S2000x128.Reduces [1] S2000
  shapeCasts_S2000_S2000x1 : S2000.ShapeCasts S2000x1
  broadcasts_S2000x1_S2000x128 : S2000x1.Broadcasts S2000x128
  inb_S128_S128_0 : ∀ a, (![0] : Fin 1 → Nat) a + S128.size a ≤ S128.size a
  h_S128 : 0 < S128.numel
  shapeCasts_S128_S128 : S128.ShapeCasts S128
  slices_S2x128_S1x128_1_0 : S2x128.Slices ![1, 0] S1x128
  shapeCasts_S2000x128_S2000x128 : S2000x128.ShapeCasts S2000x128
  dot_S2000x128_S128x128_S2000x128_1_0_0_1_n_n_wf : DotDims.WF S2000x128 S128x128 S2000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128x128.size a ≤ S3x128x128.size a
  hwx0_1 : ∀ i : grid0.Coords, EltTy.bits .f32 = 32 ∨ (Rect.block (s := S3x128x128) S3x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128.size a ≤ S3x128.size a
  hwx0_2 : ∀ i : grid0.Coords, EltTy.bits .f32 = 32 ∨ (Rect.block (s := S3x128) S3x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x2000x128.size a ≤ S3x100000x128.size a
  hwx0_3 : ∀ i : grid0.Coords, EltTy.bits .f32 = 32 ∨ (Rect.block (s := S3x100000x128) S3x2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x2000x128.size a ≤ S3x100000x128.size a
  hwx1_0 : ∀ i : grid1.Coords, EltTy.bits .f32 = 32 ∨ (Rect.block (s := S3x100000x128) S3x2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x128x128.size a ≤ S3x128x128.size a
  hwx1_2 : ∀ i : grid1.Coords, EltTy.bits .f32 = 32 ∨ (Rect.block (s := S3x128x128) S3x128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x128.size a ≤ S3x128.size a
  hwx1_3 : ∀ i : grid1.Coords, EltTy.bits .f32 = 32 ∨ (Rect.block (s := S3x128) S3x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x128x128.size a ≤ S3x128x128.size a
  hwx1_4 : ∀ i : grid1.Coords, EltTy.bits .f32 = 32 ∨ (Rect.block (s := S3x128x128) S3x128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S100000x128.size a
  hwx1_7 : ∀ i : grid1.Coords, EltTy.bits .f32 = 32 ∨ (Rect.block (s := S100000x128) S2000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3x2000x128.size a ≤ S3x100000x128.size a
  hwx2_0 : ∀ i : grid2.Coords, EltTy.bits .f32 = 32 ∨ (Rect.block (s := S3x100000x128) S3x2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3x128x128.size a ≤ S3x128x128.size a
  hwx2_2 : ∀ i : grid2.Coords, EltTy.bits .f32 = 32 ∨ (Rect.block (s := S3x128x128) S3x128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x128.size a ≤ S3x128.size a
  hwx2_3 : ∀ i : grid2.Coords, EltTy.bits .f32 = 32 ∨ (Rect.block (s := S3x128) S3x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S3x128x128.size a ≤ S3x128x128.size a
  hwx2_4 : ∀ i : grid2.Coords, EltTy.bits .f32 = 32 ∨ (Rect.block (s := S3x128x128) S3x128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S100000x128.size a
  hwx2_7 : ∀ i : grid2.Coords, EltTy.bits .f32 = 32 ∨ (Rect.block (s := S100000x128) S2000x128.size (cc2_transform_7 i) (hinb2_7 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S3x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S3x2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v63) S3x2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S3x128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S3x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S3x128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v65) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v67) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v68) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v120) S3x2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S3x128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S3x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S3x128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v122) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v124) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v125) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S3x2x600000 : Shape := ⟨3, ![3, 2, 600000]⟩
abbrev S100000 : Shape := ⟨1, ![100000]⟩
abbrev S3x600000 : Shape := ⟨2, ![3, 600000]⟩
abbrev S3x128x128 : Shape := ⟨3, ![3, 128, 128]⟩
abbrev S3x128 : Shape := ⟨2, ![3, 128]⟩
abbrev S2x128 : Shape := ⟨2, ![2, 128]⟩
abbrev S1x1x600000 : Shape := ⟨3, ![1, 1, 600000]⟩
abbrev S600000 : Shape := ⟨1, ![600000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S100000x1 : Shape := ⟨2, ![100000, 1]⟩

abbrev nBuf : Space → Nat
  | .hbm => 420
  | .vmem => 0
  | .smem => 0
  | _ => 0

abbrev hbmTy0_0 (i : Nat) : BufTy := match i % 128 with
  | 0 => ⟨S100000x128, .f32⟩
  | 1 => ⟨S3x2x600000, .i32⟩
  | 2 => ⟨S100000, .i32⟩
  | 3 => ⟨S3x600000, .i32⟩
  | 4 => ⟨S3x128x128, .f32⟩
  | 5 => ⟨S3x128, .f32⟩
  | 6 => ⟨S3x128x128, .f32⟩
  | 7 => ⟨S3x128, .f32⟩
  | 8 => ⟨S3x128x128, .f32⟩
  | 9 => ⟨S3x128x128, .f32⟩
  | 10 => ⟨S3x128, .f32⟩
  | 11 => ⟨S3x128x128, .f32⟩
  | 12 => ⟨S2x128, .f32⟩
  | 13 => ⟨S2x128, .f32⟩
  | 14 => ⟨S1x1x600000, .i32⟩
  | 15 => ⟨S600000, .i32⟩
  | 16 => ⟨S1x1x600000, .i32⟩
  | 17 => ⟨S600000, .i32⟩
  | 18 => ⟨S1x128x128, .f32⟩
  | 19 => ⟨S128x128, .f32⟩
  | 20 => ⟨S1x128, .f32⟩
  | 21 => ⟨S128, .f32⟩
  | 22 => ⟨S1x128x128, .f32⟩
  | 23 => ⟨S128x128, .f32⟩
  | 24 => ⟨S1x128x128, .f32⟩
  | 25 => ⟨S128x128, .f32⟩
  | 26 => ⟨S1x128, .f32⟩
  | 27 => ⟨S128, .f32⟩
  | 28 => ⟨S128x128, .f32⟩
  | 29 => ⟨S100000x128, .f32⟩
  | 30 => ⟨S1x128, .f32⟩
  | 31 => ⟨S100000x128, .f32⟩
  | 32 => ⟨S100000x128, .f32⟩
  | 33 => ⟨S_, .f32⟩
  | 34 => ⟨S100000x128, .f32⟩
  | 35 => ⟨S100000x128, .f32⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S600000x128, .f32⟩
  | 45 => ⟨S_, .f32⟩
  | 46 => ⟨S100000x128, .f32⟩
  | 47 => ⟨S600000x1, .i32⟩
  | 48 => ⟨S100000x128, .f32⟩
  | 49 => ⟨S_, .f32⟩
  | 50 => ⟨S600000x1, .f32⟩
  | 51 => ⟨S_, .f32⟩
  | 52 => ⟨S100000x1, .f32⟩
  | 53 => ⟨S600000x1, .i32⟩
  | 54 => ⟨S100000x1, .f32⟩
  | 55 => ⟨S_, .f32⟩
  | 56 => ⟨S100000x1, .f32⟩
  | 57 => ⟨S100000x1, .f32⟩
  | 58 => ⟨S100000x128, .f32⟩
  | 59 => ⟨S100000x128, .f32⟩
  | 60 => ⟨S128x128, .f32⟩
  | 61 => ⟨S100000x128, .f32⟩
  | 62 => ⟨S1x128, .f32⟩
  | 63 => ⟨S100000x128, .f32⟩
  | 64 => ⟨S100000x128, .f32⟩
  | 65 => ⟨S128x128, .f32⟩
  | 66 => ⟨S100000x128, .f32⟩
  | 67 => ⟨S100000x128, .f32⟩
  | 68 => ⟨S100000x128, .f32⟩
  | 69 => ⟨S_, .f32⟩
  | 70 => ⟨S100000, .f32⟩
  | 71 => ⟨S100000x1, .f32⟩
  | 72 => ⟨S100000x1, .f32⟩
  | 73 => ⟨S_, .f32⟩
  | 74 => ⟨S100000x1, .f32⟩
  | 75 => ⟨S100000x1, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S1x1x600000, .i32⟩
  | 82 => ⟨S600000, .i32⟩
  | 83 => ⟨S1x1x600000, .i32⟩
  | 84 => ⟨S600000, .i32⟩
  | 85 => ⟨S1x128x128, .f32⟩
  | 86 => ⟨S128x128, .f32⟩
  | 87 => ⟨S1x128, .f32⟩
  | 88 => ⟨S128, .f32⟩
  | 89 => ⟨S1x128x128, .f32⟩
  | 90 => ⟨S128x128, .f32⟩
  | 91 => ⟨S1x128x128, .f32⟩
  | 92 => ⟨S128x128, .f32⟩
  | 93 => ⟨S1x128, .f32⟩
  | 94 => ⟨S128, .f32⟩
  | 95 => ⟨S128x128, .f32⟩
  | 96 => ⟨S100000x128, .f32⟩
  | 97 => ⟨S1x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S_, .i32⟩
  | 104 => ⟨S600000, .i32⟩
  | 105 => ⟨S600000, .i1⟩
  | 106 => ⟨S_, .i32⟩
  | 107 => ⟨S600000, .i32⟩
  | 108 => ⟨S600000, .i32⟩
  | 109 => ⟨S600000, .i32⟩
  | 110 => ⟨S600000x1, .i32⟩
  | 111 => ⟨S600000x128, .f32⟩
  | 112 => ⟨S_, .f32⟩
  | 113 => ⟨S100000x128, .f32⟩
  | 114 => ⟨S600000x1, .i32⟩
  | 115 => ⟨S100000x128, .f32⟩
  | 116 => ⟨S_, .f32⟩
  | 117 => ⟨S600000x1, .f32⟩
  | 118 => ⟨S_, .f32⟩
  | 119 => ⟨S100000x1, .f32⟩
  | 120 => ⟨S600000x1, .i32⟩
  | 121 => ⟨S100000x1, .f32⟩
  | 122 => ⟨S_, .f32⟩
  | 123 => ⟨S100000x1, .f32⟩
  | 124 => ⟨S100000x1, .f32⟩
  | 125 => ⟨S100000x128, .f32⟩
  | 126 => ⟨S100000x128, .f32⟩
  | 127 => ⟨S128x128, .f32⟩
  | _ => ⟨S100000x128, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S128x128, .f32⟩
  | 5 => ⟨S100000x128, .f32⟩
  | 6 => ⟨S100000x128, .f32⟩
  | 7 => ⟨S100000x128, .f32⟩
  | 8 => ⟨S_, .f32⟩
  | 9 => ⟨S100000, .f32⟩
  | 10 => ⟨S100000x1, .f32⟩
  | 11 => ⟨S100000x1, .f32⟩
  | 12 => ⟨S_, .f32⟩
  | 13 => ⟨S100000x1, .f32⟩
  | 14 => ⟨S100000x1, .f32⟩
  | 15 => ⟨S100000x128, .f32⟩
  | 16 => ⟨S100000x128, .f32⟩
  | 17 => ⟨S100000x128, .f32⟩
  | 18 => ⟨S1x1x600000, .i32⟩
  | 19 => ⟨S600000, .i32⟩
  | 20 => ⟨S1x1x600000, .i32⟩
  | 21 => ⟨S600000, .i32⟩
  | 22 => ⟨S1x128x128, .f32⟩
  | 23 => ⟨S128x128, .f32⟩
  | 24 => ⟨S1x128, .f32⟩
  | 25 => ⟨S128, .f32⟩
  | 26 => ⟨S1x128x128, .f32⟩
  | 27 => ⟨S128x128, .f32⟩
  | 28 => ⟨S1x128x128, .f32⟩
  | 29 => ⟨S128x128, .f32⟩
  | 30 => ⟨S1x128, .f32⟩
  | 31 => ⟨S128, .f32⟩
  | 32 => ⟨S128x128, .f32⟩
  | 33 => ⟨S100000x128, .f32⟩
  | 34 => ⟨S1x128, .f32⟩
  | 35 => ⟨S100000x128, .f32⟩
  | 36 => ⟨S100000x128, .f32⟩
  | 37 => ⟨S_, .f32⟩
  | 38 => ⟨S100000x128, .f32⟩
  | 39 => ⟨S100000x128, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000x128, .f32⟩
  | 49 => ⟨S_, .f32⟩
  | 50 => ⟨S100000x128, .f32⟩
  | 51 => ⟨S600000x1, .i32⟩
  | 52 => ⟨S100000x128, .f32⟩
  | 53 => ⟨S_, .f32⟩
  | 54 => ⟨S600000x1, .f32⟩
  | 55 => ⟨S_, .f32⟩
  | 56 => ⟨S100000x1, .f32⟩
  | 57 => ⟨S600000x1, .i32⟩
  | 58 => ⟨S100000x1, .f32⟩
  | 59 => ⟨S_, .f32⟩
  | 60 => ⟨S100000x1, .f32⟩
  | 61 => ⟨S100000x1, .f32⟩
  | 62 => ⟨S100000x128, .f32⟩
  | 63 => ⟨S100000x128, .f32⟩
  | 64 => ⟨S128x128, .f32⟩
  | 65 => ⟨S100000x128, .f32⟩
  | 66 => ⟨S1x128, .f32⟩
  | 67 => ⟨S100000x128, .f32⟩
  | 68 => ⟨S100000x128, .f32⟩
  | 69 => ⟨S128x128, .f32⟩
  | 70 => ⟨S100000x128, .f32⟩
  | 71 => ⟨S100000x128, .f32⟩
  | 72 => ⟨S100000x128, .f32⟩
  | 73 => ⟨S_, .f32⟩
  | 74 => ⟨S100000, .f32⟩
  | 75 => ⟨S100000x1, .f32⟩
  | 76 => ⟨S100000x1, .f32⟩
  | 77 => ⟨S_, .f32⟩
  | 78 => ⟨S100000x1, .f32⟩
  | 79 => ⟨S100000x1, .f32⟩
  | 80 => ⟨S100000x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S1x128, .f32⟩
  | 90 => ⟨S128, .f32⟩
  | 91 => ⟨S1x128, .f32⟩
  | 92 => ⟨S128, .f32⟩
  | 93 => ⟨S_, .f32⟩
  | 94 => ⟨S100000, .f32⟩
  | 95 => ⟨S100000x1, .f32⟩
  | 96 => ⟨S_, .f32⟩
  | 97 => ⟨S100000x1, .f32⟩
  | 98 => ⟨S100000x1, .f32⟩
  | 99 => ⟨S100000x128, .f32⟩
  | 100 => ⟨S100000x128, .f32⟩
  | 101 => ⟨S100000x128, .f32⟩
  | 102 => ⟨S_, .f32⟩
  | 103 => ⟨S100000, .f32⟩
  | 104 => ⟨S100000x1, .f32⟩
  | 105 => ⟨S_, .f32⟩
  | 106 => ⟨S100000x1, .f32⟩
  | 107 => ⟨S100000x1, .f32⟩
  | 108 => ⟨S100000x128, .f32⟩
  | 109 => ⟨S100000x128, .f32⟩
  | 110 => ⟨S_, .f32⟩
  | 111 => ⟨S100000x1, .f32⟩
  | 112 => ⟨S100000x1, .f32⟩
  | 113 => ⟨S100000x1, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S1x1x600000, .i32⟩
  | 123 => ⟨S600000, .i32⟩
  | 124 => ⟨S1x1x600000, .i32⟩
  | 125 => ⟨S600000, .i32⟩
  | 126 => ⟨S1x128x128, .f32⟩
  | 127 => ⟨S128x128, .f32⟩
  | _ => ⟨S100000x128, .f32⟩

abbrev hbmTy0_2 (i : Nat) : BufTy := match i % 128 with
  | 0 => ⟨S1x128, .f32⟩
  | 1 => ⟨S128, .f32⟩
  | 2 => ⟨S1x128x128, .f32⟩
  | 3 => ⟨S128x128, .f32⟩
  | 4 => ⟨S_, .i32⟩
  | 5 => ⟨S600000, .i32⟩
  | 6 => ⟨S600000, .i1⟩
  | 7 => ⟨S_, .i32⟩
  | 8 => ⟨S600000, .i32⟩
  | 9 => ⟨S600000, .i32⟩
  | 10 => ⟨S600000, .i32⟩
  | 11 => ⟨S600000x1, .i32⟩
  | 12 => ⟨S600000x128, .f32⟩
  | 13 => ⟨S_, .f32⟩
  | 14 => ⟨S100000x128, .f32⟩
  | 15 => ⟨S600000x1, .i32⟩
  | 16 => ⟨S100000x128, .f32⟩
  | 17 => ⟨S_, .f32⟩
  | 18 => ⟨S600000x1, .f32⟩
  | 19 => ⟨S_, .f32⟩
  | 20 => ⟨S100000x1, .f32⟩
  | 21 => ⟨S600000x1, .i32⟩
  | 22 => ⟨S100000x1, .f32⟩
  | 23 => ⟨S_, .f32⟩
  | 24 => ⟨S100000x1, .f32⟩
  | 25 => ⟨S100000x1, .f32⟩
  | 26 => ⟨S100000x128, .f32⟩
  | 27 => ⟨S100000x128, .f32⟩
  | 28 => ⟨S128x128, .f32⟩
  | 29 => ⟨S100000x128, .f32⟩
  | 30 => ⟨S1x128, .f32⟩
  | 31 => ⟨S100000x128, .f32⟩
  | 32 => ⟨S100000x128, .f32⟩
  | 33 => ⟨S128x128, .f32⟩
  | 34 => ⟨S100000x128, .f32⟩
  | 35 => ⟨S100000x128, .f32⟩
  | 36 => ⟨S_, .f32⟩
  | 37 => ⟨S100000x128, .f32⟩
  | 38 => ⟨S100000x128, .f32⟩
  | 39 => ⟨S1x1x600000, .i32⟩
  | 40 => ⟨S600000, .i32⟩
  | 41 => ⟨S1x1x600000, .i32⟩
  | 42 => ⟨S600000, .i32⟩
  | 43 => ⟨S1x128x128, .f32⟩
  | 44 => ⟨S128x128, .f32⟩
  | 45 => ⟨S1x128, .f32⟩
  | 46 => ⟨S128, .f32⟩
  | 47 => ⟨S1x128x128, .f32⟩
  | 48 => ⟨S128x128, .f32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S600000x128, .f32⟩
  | 58 => ⟨S_, .f32⟩
  | 59 => ⟨S100000x128, .f32⟩
  | 60 => ⟨S600000x1, .i32⟩
  | 61 => ⟨S100000x128, .f32⟩
  | 62 => ⟨S_, .f32⟩
  | 63 => ⟨S600000x1, .f32⟩
  | 64 => ⟨S_, .f32⟩
  | 65 => ⟨S100000x1, .f32⟩
  | 66 => ⟨S600000x1, .i32⟩
  | 67 => ⟨S100000x1, .f32⟩
  | 68 => ⟨S_, .f32⟩
  | 69 => ⟨S100000x1, .f32⟩
  | 70 => ⟨S100000x1, .f32⟩
  | 71 => ⟨S100000x128, .f32⟩
  | 72 => ⟨S100000x128, .f32⟩
  | 73 => ⟨S128x128, .f32⟩
  | 74 => ⟨S100000x128, .f32⟩
  | 75 => ⟨S1x128, .f32⟩
  | 76 => ⟨S100000x128, .f32⟩
  | 77 => ⟨S100000x128, .f32⟩
  | 78 => ⟨S128x128, .f32⟩
  | 79 => ⟨S100000x128, .f32⟩
  | 80 => ⟨S100000x128, .f32⟩
  | 81 => ⟨S100000x128, .f32⟩
  | 82 => ⟨S1x1x600000, .i32⟩
  | 83 => ⟨S600000, .i32⟩
  | 84 => ⟨S1x1x600000, .i32⟩
  | 85 => ⟨S600000, .i32⟩
  | 86 => ⟨S1x128x128, .f32⟩
  | 87 => ⟨S128x128, .f32⟩
  | 88 => ⟨S1x128, .f32⟩
  | 89 => ⟨S128, .f32⟩
  | 90 => ⟨S1x128x128, .f32⟩
  | 91 => ⟨S128x128, .f32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000x128, .f32⟩
  | 101 => ⟨S_, .f32⟩
  | 102 => ⟨S100000x128, .f32⟩
  | 103 => ⟨S600000x1, .i32⟩
  | 104 => ⟨S100000x128, .f32⟩
  | 105 => ⟨S_, .f32⟩
  | 106 => ⟨S600000x1, .f32⟩
  | 107 => ⟨S_, .f32⟩
  | 108 => ⟨S100000x1, .f32⟩
  | 109 => ⟨S600000x1, .i32⟩
  | 110 => ⟨S100000x1, .f32⟩
  | 111 => ⟨S_, .f32⟩
  | 112 => ⟨S100000x1, .f32⟩
  | 113 => ⟨S100000x1, .f32⟩
  | 114 => ⟨S100000x128, .f32⟩
  | 115 => ⟨S100000x128, .f32⟩
  | 116 => ⟨S128x128, .f32⟩
  | 117 => ⟨S100000x128, .f32⟩
  | 118 => ⟨S1x128, .f32⟩
  | 119 => ⟨S100000x128, .f32⟩
  | 120 => ⟨S100000x128, .f32⟩
  | 121 => ⟨S128x128, .f32⟩
  | 122 => ⟨S100000x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x128, .f32⟩

abbrev hbmTy0_3 (i : Nat) : BufTy := match i % 128 with
  | 0 => ⟨S_, .f32⟩
  | 1 => ⟨S100000x128, .f32⟩
  | 2 => ⟨S100000x128, .f32⟩
  | 3 => ⟨S1x128, .f32⟩
  | 4 => ⟨S128, .f32⟩
  | 5 => ⟨S1x128, .f32⟩
  | 6 => ⟨S128, .f32⟩
  | 7 => ⟨S_, .f32⟩
  | 8 => ⟨S100000, .f32⟩
  | 9 => ⟨S100000x1, .f32⟩
  | 10 => ⟨S_, .f32⟩
  | 11 => ⟨S100000x1, .f32⟩
  | 12 => ⟨S100000x1, .f32⟩
  | 13 => ⟨S100000x128, .f32⟩
  | 14 => ⟨S100000x128, .f32⟩
  | 15 => ⟨S100000x128, .f32⟩
  | 16 => ⟨S_, .f32⟩
  | 17 => ⟨S100000, .f32⟩
  | 18 => ⟨S100000x1, .f32⟩
  | 19 => ⟨S_, .f32⟩
  | 20 => ⟨S100000x1, .f32⟩
  | 21 => ⟨S100000x1, .f32⟩
  | 22 => ⟨S100000x128, .f32⟩
  | 23 => ⟨S100000x128, .f32⟩
  | 24 => ⟨S_, .f32⟩
  | 25 => ⟨S100000x1, .f32⟩
  | 26 => ⟨S100000x1, .f32⟩
  | 27 => ⟨S100000x1, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_1 : Ref sig .tc := ⟨.hbm, 49, rfl⟩
abbrev main_v30 : Ref sig .tc := ⟨.hbm, 50, rfl⟩
abbrev main_cst_2 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_3 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_4 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_5 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_6 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_call1_cst : Ref sig .tc := ⟨.hbm, 100, rfl⟩
abbrev main_call1_v0 : Ref sig .tc := ⟨.hbm, 101, rfl⟩
abbrev main_v75 : Ref sig .tc := ⟨.hbm, 102, rfl⟩
abbrev main_c_7 : Ref sig .tc := ⟨.hbm, 103, rfl⟩
abbrev main_v76 : Ref sig .tc := ⟨.hbm, 104, rfl⟩
abbrev main_v77 : Ref sig .tc := ⟨.hbm, 105, rfl⟩
abbrev main_c_8 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_9 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_10 : Ref sig .tc := ⟨.hbm, 116, rfl⟩
abbrev main_v86 : Ref sig .tc := ⟨.hbm, 117, rfl⟩
abbrev main_cst_11 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_12 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_13 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_14 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_call2_cst : Ref sig .tc := ⟨.hbm, 165, rfl⟩
abbrev main_call2_v0 : Ref sig .tc := ⟨.hbm, 166, rfl⟩
abbrev main_v130 : Ref sig .tc := ⟨.hbm, 167, rfl⟩
abbrev main_c_15 : Ref sig .tc := ⟨.hbm, 168, rfl⟩
abbrev main_v131 : Ref sig .tc := ⟨.hbm, 169, rfl⟩
abbrev main_v132 : Ref sig .tc := ⟨.hbm, 170, rfl⟩
abbrev main_c_16 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_cst_17 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_cst_18 : Ref sig .tc := ⟨.hbm, 181, rfl⟩
abbrev main_v141 : Ref sig .tc := ⟨.hbm, 182, rfl⟩
abbrev main_cst_19 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_cst_20 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_cst_21 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_cst_22 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_cst_23 : Ref sig .tc := ⟨.hbm, 211, rfl⟩
abbrev main_v166 : Ref sig .tc := ⟨.hbm, 212, rfl⟩
abbrev main_v167 : Ref sig .tc := ⟨.hbm, 213, rfl⟩
abbrev main_call3_cst : Ref sig .tc := ⟨.hbm, 214, rfl⟩
abbrev main_call3_v0 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_cst_24 : Ref sig .tc := ⟨.hbm, 221, rfl⟩
abbrev main_v173 : Ref sig .tc := ⟨.hbm, 222, rfl⟩
abbrev main_v174 : Ref sig .tc := ⟨.hbm, 223, rfl⟩
abbrev main_cst_25 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_cst_26 : Ref sig .tc := ⟨.hbm, 230, rfl⟩
abbrev main_v180 : Ref sig .tc := ⟨.hbm, 231, rfl⟩
abbrev main_v181 : Ref sig .tc := ⟨.hbm, 232, rfl⟩
abbrev main_cst_27 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_cst_28 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_c_29 : Ref sig .tc := ⟨.hbm, 260, rfl⟩
abbrev main_v207 : Ref sig .tc := ⟨.hbm, 261, rfl⟩
abbrev main_v208 : Ref sig .tc := ⟨.hbm, 262, rfl⟩
abbrev main_c_30 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_cst_31 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_cst_32 : Ref sig .tc := ⟨.hbm, 273, rfl⟩
abbrev main_v217 : Ref sig .tc := ⟨.hbm, 274, rfl⟩
abbrev main_cst_33 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_cst_34 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_v226 : Ref sig .tc := ⟨.hbm, 285, rfl⟩
abbrev main_v227 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_cst_35 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_c_36 : Ref sig .tc := ⟨.hbm, 305, rfl⟩
abbrev main_v245 : Ref sig .tc := ⟨.hbm, 306, rfl⟩
abbrev main_v246 : Ref sig .tc := ⟨.hbm, 307, rfl⟩
abbrev main_c_37 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_cst_38 : Ref sig .tc := ⟨.hbm, 314, rfl⟩
abbrev main_v252 : Ref sig .tc := ⟨.hbm, 315, rfl⟩
abbrev main_v253 : Ref sig .tc := ⟨.hbm, 316, rfl⟩
abbrev main_v254 : Ref sig .tc := ⟨.hbm, 317, rfl⟩
abbrev main_cst_39 : Ref sig .tc := ⟨.hbm, 318, rfl⟩
abbrev main_v255 : Ref sig .tc := ⟨.hbm, 319, rfl⟩
abbrev main_cst_40 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_cst_41 : Ref sig .tc := ⟨.hbm, 324, rfl⟩
abbrev main_v259 : Ref sig .tc := ⟨.hbm, 325, rfl⟩
abbrev main_v260 : Ref sig .tc := ⟨.hbm, 326, rfl⟩
abbrev main_v261 : Ref sig .tc := ⟨.hbm, 327, rfl⟩
abbrev main_v262 : Ref sig .tc := ⟨.hbm, 328, rfl⟩
abbrev main_v263 : Ref sig .tc := ⟨.hbm, 329, rfl⟩
abbrev main_v264 : Ref sig .tc := ⟨.hbm, 330, rfl⟩
abbrev main_v265 : Ref sig .tc := ⟨.hbm, 331, rfl⟩
abbrev main_v266 : Ref sig .tc := ⟨.hbm, 332, rfl⟩
abbrev main_v267 : Ref sig .tc := ⟨.hbm, 333, rfl⟩
abbrev main_v268 : Ref sig .tc := ⟨.hbm, 334, rfl⟩
abbrev main_v269 : Ref sig .tc := ⟨.hbm, 335, rfl⟩
abbrev main_v270 : Ref sig .tc := ⟨.hbm, 336, rfl⟩
abbrev main_v271 : Ref sig .tc := ⟨.hbm, 337, rfl⟩
abbrev main_v272 : Ref sig .tc := ⟨.hbm, 338, rfl⟩
abbrev main_v273 : Ref sig .tc := ⟨.hbm, 339, rfl⟩
abbrev main_v274 : Ref sig .tc := ⟨.hbm, 340, rfl⟩
abbrev main_v275 : Ref sig .tc := ⟨.hbm, 341, rfl⟩
abbrev main_v276 : Ref sig .tc := ⟨.hbm, 342, rfl⟩
abbrev main_v277 : Ref sig .tc := ⟨.hbm, 343, rfl⟩
abbrev main_v278 : Ref sig .tc := ⟨.hbm, 344, rfl⟩
abbrev main_v279 : Ref sig .tc := ⟨.hbm, 345, rfl⟩
abbrev main_v280 : Ref sig .tc := ⟨.hbm, 346, rfl⟩
abbrev main_v281 : Ref sig .tc := ⟨.hbm, 347, rfl⟩
abbrev main_c_42 : Ref sig .tc := ⟨.hbm, 348, rfl⟩
abbrev main_v282 : Ref sig .tc := ⟨.hbm, 349, rfl⟩
abbrev main_v283 : Ref sig .tc := ⟨.hbm, 350, rfl⟩
abbrev main_c_43 : Ref sig .tc := ⟨.hbm, 351, rfl⟩
abbrev main_v284 : Ref sig .tc := ⟨.hbm, 352, rfl⟩
abbrev main_v285 : Ref sig .tc := ⟨.hbm, 353, rfl⟩
abbrev main_v286 : Ref sig .tc := ⟨.hbm, 354, rfl⟩
abbrev main_v287 : Ref sig .tc := ⟨.hbm, 355, rfl⟩
abbrev main_v288 : Ref sig .tc := ⟨.hbm, 356, rfl⟩
abbrev main_cst_44 : Ref sig .tc := ⟨.hbm, 357, rfl⟩
abbrev main_v289 : Ref sig .tc := ⟨.hbm, 358, rfl⟩
abbrev main_v290 : Ref sig .tc := ⟨.hbm, 359, rfl⟩
abbrev main_v291 : Ref sig .tc := ⟨.hbm, 360, rfl⟩
abbrev main_cst_45 : Ref sig .tc := ⟨.hbm, 361, rfl⟩
abbrev main_v292 : Ref sig .tc := ⟨.hbm, 362, rfl⟩
abbrev main_cst_46 : Ref sig .tc := ⟨.hbm, 363, rfl⟩
abbrev main_v293 : Ref sig .tc := ⟨.hbm, 364, rfl⟩
abbrev main_v294 : Ref sig .tc := ⟨.hbm, 365, rfl⟩
abbrev main_v295 : Ref sig .tc := ⟨.hbm, 366, rfl⟩
abbrev main_cst_47 : Ref sig .tc := ⟨.hbm, 367, rfl⟩
abbrev main_v296 : Ref sig .tc := ⟨.hbm, 368, rfl⟩
abbrev main_v297 : Ref sig .tc := ⟨.hbm, 369, rfl⟩
abbrev main_v298 : Ref sig .tc := ⟨.hbm, 370, rfl⟩
abbrev main_v299 : Ref sig .tc := ⟨.hbm, 371, rfl⟩
abbrev main_v300 : Ref sig .tc := ⟨.hbm, 372, rfl⟩
abbrev main_v301 : Ref sig .tc := ⟨.hbm, 373, rfl⟩
abbrev main_v302 : Ref sig .tc := ⟨.hbm, 374, rfl⟩
abbrev main_v303 : Ref sig .tc := ⟨.hbm, 375, rfl⟩
abbrev main_v304 : Ref sig .tc := ⟨.hbm, 376, rfl⟩
abbrev main_v305 : Ref sig .tc := ⟨.hbm, 377, rfl⟩
abbrev main_v306 : Ref sig .tc := ⟨.hbm, 378, rfl⟩
abbrev main_v307 : Ref sig .tc := ⟨.hbm, 379, rfl⟩
abbrev main_v308 : Ref sig .tc := ⟨.hbm, 380, rfl⟩
abbrev main_cst_48 : Ref sig .tc := ⟨.hbm, 381, rfl⟩
abbrev main_v309 : Ref sig .tc := ⟨.hbm, 382, rfl⟩
abbrev main_v310 : Ref sig .tc := ⟨.hbm, 383, rfl⟩
abbrev main_call4_cst : Ref sig .tc := ⟨.hbm, 384, rfl⟩
abbrev main_call4_v0 : Ref sig .tc := ⟨.hbm, 385, rfl⟩
abbrev main_v311 : Ref sig .tc := ⟨.hbm, 386, rfl⟩
abbrev main_v312 : Ref sig .tc := ⟨.hbm, 387, rfl⟩
abbrev main_v313 : Ref sig .tc := ⟨.hbm, 388, rfl⟩
abbrev main_v314 : Ref sig .tc := ⟨.hbm, 389, rfl⟩
abbrev main_v315 : Ref sig .tc := ⟨.hbm, 390, rfl⟩
abbrev main_cst_49 : Ref sig .tc := ⟨.hbm, 391, rfl⟩
abbrev main_v316 : Ref sig .tc := ⟨.hbm, 392, rfl⟩
abbrev main_v317 : Ref sig .tc := ⟨.hbm, 393, rfl⟩
abbrev main_cst_50 : Ref sig .tc := ⟨.hbm, 394, rfl⟩
abbrev main_v318 : Ref sig .tc := ⟨.hbm, 395, rfl⟩
abbrev main_v319 : Ref sig .tc := ⟨.hbm, 396, rfl⟩
abbrev main_v320 : Ref sig .tc := ⟨.hbm, 397, rfl⟩
abbrev main_v321 : Ref sig .tc := ⟨.hbm, 398, rfl⟩
abbrev main_v322 : Ref sig .tc := ⟨.hbm, 399, rfl⟩
abbrev main_cst_51 : Ref sig .tc := ⟨.hbm, 400, rfl⟩
abbrev main_v323 : Ref sig .tc := ⟨.hbm, 401, rfl⟩
abbrev main_v324 : Ref sig .tc := ⟨.hbm, 402, rfl⟩
abbrev main_cst_52 : Ref sig .tc := ⟨.hbm, 403, rfl⟩
abbrev main_v325 : Ref sig .tc := ⟨.hbm, 404, rfl⟩
abbrev main_v326 : Ref sig .tc := ⟨.hbm, 405, rfl⟩
abbrev main_v327 : Ref sig .tc := ⟨.hbm, 406, rfl⟩
abbrev main_v328 : Ref sig .tc := ⟨.hbm, 407, rfl⟩
abbrev main_cst_53 : Ref sig .tc := ⟨.hbm, 408, rfl⟩
abbrev main_v329 : Ref sig .tc := ⟨.hbm, 409, rfl⟩
abbrev main_v330 : Ref sig .tc := ⟨.hbm, 410, rfl⟩
abbrev main_v331 : Ref sig .tc := ⟨.hbm, 411, rfl⟩
abbrev main_v332 : Ref sig .tc := ⟨.hbm, 412, rfl⟩
abbrev main_v333 : Ref sig .tc := ⟨.hbm, 413, rfl⟩
abbrev main_v334 : Ref sig .tc := ⟨.hbm, 414, rfl⟩
abbrev main_v335 : Ref sig .tc := ⟨.hbm, 415, rfl⟩
abbrev main_v336 : Ref sig .tc := ⟨.hbm, 416, rfl⟩
abbrev main_v337 : Ref sig .tc := ⟨.hbm, 417, rfl⟩
abbrev main_v338 : Ref sig .tc := ⟨.hbm, 418, rfl⟩
abbrev main_v339 : Ref sig .tc := ⟨.hbm, 419, rfl⟩

abbrev nD : Nat := 1
abbrev τ : Topo := Topo.v7x

variable {F : FTy → Type} [FloatOps F]

class Facts₀ : Prop where
  slices_S3x2x600000_S1x1x600000_0_0_0 : S3x2x600000.Slices ![0, 0, 0] S1x1x600000
  shapeCasts_S1x1x600000_S600000 : S1x1x600000.ShapeCasts S600000
  slices_S3x2x600000_S1x1x600000_0_1_0 : S3x2x600000.Slices ![0, 1, 0] S1x1x600000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  slices_S3x2x600000_S1x1x600000_1_0_0 : S3x2x600000.Slices ![1, 0, 0] S1x1x600000
  slices_S3x2x600000_S1x1x600000_1_1_0 : S3x2x600000.Slices ![1, 1, 0] S1x1x600000
  slices_S3x128x128_S1x128x128_1_0_0 : S3x128x128.Slices ![1, 0, 0] S1x128x128
  slices_S3x128_S1x128_1_0 : S3x128.Slices ![1, 0] S1x128
  slices_S3x2x600000_S1x1x600000_2_0_0 : S3x2x600000.Slices ![2, 0, 0] S1x1x600000
  slices_S3x2x600000_S1x1x600000_2_1_0 : S3x2x600000.Slices ![2, 1, 0] S1x1x600000
  slices_S3x128x128_S1x128x128_2_0_0 : S3x128x128.Slices ![2, 0, 0] S1x128x128
  slices_S3x128_S1x128_2_0 : S3x128.Slices ![2, 0] S1x128
  slices_S2x128_S1x128_0_0 : S2x128.Slices ![0, 0] S1x128
  slices_S2x128_S1x128_1_0 : S2x128.Slices ![1, 0] S1x128
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf

class Facts : Prop extends Facts₀ where

variable [Facts]
-- ==== Proof.KRegion0.lean ====
import proofs.«429923_j72335839199437_1_alg».proof.Proof.Gen.Kernel.Launch
import proofs.«429923_j72335839199437_1_alg».proof.Proof.Gen.Kernel.Skeleton
import proofs.«429923_j72335839199437_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S3x128x128 := Rect.unit (s := S3x128x128) ![0, 0, 0] S1x128x128.size inb_S3x128x128_S1x128x128_0_0_0
abbrev r0_2 : Rect S3x128 := Rect.unit (s := S3x128) ![0, 0] S1x128.size inb_S3x128_S1x128_0_0
abbrev r0_3 : Rect S3x2000x128 := Rect.unit (s := S3x2000x128) ![0, 0, 0] S1x2000x128.size inb_S3x2000x128_S1x2000x128_0_0_0
abbrev r0_4 : Rect S3x128x128 := Rect.unit (s := S3x128x128) ![1, 0, 0] S1x128x128.size inb_S3x128x128_S1x128x128_1_0_0
abbrev r0_5 : Rect S3x128 := Rect.unit (s := S3x128) ![1, 0] S1x128.size inb_S3x128_S1x128_1_0
abbrev r0_6 : Rect S3x2000x128 := Rect.unit (s := S3x2000x128) ![1, 0, 0] S1x2000x128.size inb_S3x2000x128_S1x2000x128_1_0_0
abbrev r0_7 : Rect S3x128x128 := Rect.unit (s := S3x128x128) ![2, 0, 0] S1x128x128.size inb_S3x128x128_S1x128x128_2_0_0
abbrev r0_8 : Rect S3x128 := Rect.unit (s := S3x128) ![2, 0] S1x128.size inb_S3x128_S1x128_2_0
abbrev r0_9 : Rect S3x2000x128 := Rect.unit (s := S3x2000x128) ![2, 0, 0] S1x2000x128.size inb_S3x2000x128_S1x2000x128_2_0_0

def out0_3 (x0 : Vec F S2000x128 .f32) (x1 : Vec F S3x128x128 .f32) (x2 : Vec F S3x128 .f32) : Vec F S3x2000x128 .f32 :=
  View.canon [⟨r0_9, k0_pay1 (k0_pay2 (View.ld x0 r0_0)) (k0_pay5 (View.ld x1 r0_7)) (View.ld x2 r0_8)⟩,
    ⟨r0_6, k0_pay4 (View.ld x0 r0_0) (View.ld x1 r0_4) (View.ld x2 r0_5)⟩,
    ⟨r0_3, k0_pay3 (View.ld x0 r0_0) (View.ld x1 r0_1) (View.ld x2 r0_2)⟩]

theorem cover0_3 (p0 : Vec F S1x2000x128 .f32) (p1 : Vec F S1x2000x128 .f32) (p2 : Vec F S1x2000x128 .f32) (y : S3x2000x128.Idx) :
    ∃ pc ∈ ([⟨r0_9, p0⟩, ⟨r0_6, p1⟩, ⟨r0_3, p2⟩] : List (View.Piece (Elt F) S3x2000x128 .f32)), y ∈ pc.1.set :=
  View.cover_of_tiled [⟨r0_9, p0⟩, ⟨r0_6, p1⟩, ⟨r0_3, p2⟩] S1x2000x128.size (by rfl) y

set_option maxHeartbeats 1000000 in
theorem sound_kernel0 (c : Dev nD) (E : Set ℕ) (i : grid0.Coords) {arg1 : Memref sig .tc .vmem S2000x128 .f32} {harg1 : arg1.IsWhole} {arg2 : Memref sig .tc .vmem S3x128x128 .f32} {harg2 : arg2.IsWhole} {arg3 : Memref sig .tc .vmem S3x128 .f32} {harg3 : arg3.IsWhole} {arg4 : Memref sig .tc .vmem S3x2000x128 .f32} {harg4 : arg4.IsWhole}
    {x0 : Vec F S2000x128 .f32} {x1 : Vec F S3x128x128 .f32} {x2 : Vec F S3x128 .f32} {K : PUnit → sProp 𝕄} :
    iprop(owns c arg1 fullShare x0 ∗ owns c arg2 fullShare x1 ∗ owns c arg3 fullShare x2 ∗ (∃ d, owns c arg4 fullShare d)
        ∗ (iprop(owns c arg1 fullShare x0 ∗ owns c arg2 fullShare x1 ∗ owns c arg3 fullShare x2 ∗ owns c arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _ _ _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0_3 (iblk0 V c 0 t) (iblk0 V c 1 t) (iblk0 V c 2 t) := by dsimp only [dat0]

theorem before0 (c : Dev nD) (w : Fin 4) (hw : (cfg0.win w).isOut = false) (t : Fin cfg0.N) (d) :
    (dat0 V c).before w t d = (dat0 V c).after w t := by
  fin_cases w <;> first
    | exact absurd hw (by decide)
    | exact ((dat0 V c).before_in_eq_fetched _ rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  sl_whnfR [defs₀, Defs.onTc]
  simp only [before0 V c 0 rfl, before0 V c 1 rfl, before0 V c 2 rfl]
  dsimp only [dat0]
  iintro ⟨HΦ, Ho, ⟨%d0, H0⟩, ⟨%d1, H1⟩, ⟨%d2, H2⟩, ⟨%d3, H3⟩⟩
  iapply sound_kernel0 c Set.univ (grid0.coords t)
  isplitl [H0]; · iexact H0
  isplitl [H1]; · iexact H1
  isplitl [H2]; · iexact H2
  isplitl [H3]; · iexists _; iexact H3
  iintro Hw
  isplitl [HΦ]; · iexact HΦ
  isplitl [Ho]; · iexact Ho
  iexact Hw

end Cert.Kernel.Rgn

end
-- ==== Proof.KRegion1.lean ====
import proofs.«429923_j72335839199437_1_alg».proof.Proof.Gen.Kernel.Launch
import proofs.«429923_j72335839199437_1_alg».proof.Proof.Gen.Kernel.Skeleton
import proofs.«429923_j72335839199437_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x128 := Rect.unit (s := S2000x128) ![0, 0] S2000x128.size inb_S2000x128_S2000x128_0_0
abbrev r1_1 : Rect S3x2000x128 := Rect.unit (s := S3x2000x128) ![0, 0, 0] S1x2000x128.size inb_S3x2000x128_S1x2000x128_0_0_0
abbrev r1_2 : Rect S3x128x128 := Rect.unit (s := S3x128x128) ![0, 0, 0] S1x128x128.size inb_S3x128x128_S1x128x128_0_0_0
abbrev r1_3 : Rect S3x128 := Rect.unit (s := S3x128) ![0, 0] S1x128.size inb_S3x128_S1x128_0_0
abbrev r1_4 : Rect S3x2000x128 := Rect.unit (s := S3x2000x128) ![1, 0, 0] S1x2000x128.size inb_S3x2000x128_S1x2000x128_1_0_0
abbrev r1_5 : Rect S3x128x128 := Rect.unit (s := S3x128x128) ![1, 0, 0] S1x128x128.size inb_S3x128x128_S1x128x128_1_0_0
abbrev r1_6 : Rect S3x128 := Rect.unit (s := S3x128) ![1, 0] S1x128.size inb_S3x128_S1x128_1_0
abbrev r1_7 : Rect S3x2000x128 := Rect.unit (s := S3x2000x128) ![2, 0, 0] S1x2000x128.size inb_S3x2000x128_S1x2000x128_2_0_0
abbrev r1_8 : Rect S3x128x128 := Rect.unit (s := S3x128x128) ![2, 0, 0] S1x128x128.size inb_S3x128x128_S1x128x128_2_0_0
abbrev r1_9 : Rect S3x128 := Rect.unit (s := S3x128) ![2, 0] S1x128.size inb_S3x128_S1x128_2_0
abbrev r1_10 : Rect S128 := Rect.unit (s := S128) ![0] S128.size inb_S128_S128_0

def out1_7 (x0 : Vec F S3x2000x128 .f32) (x1 : Vec F S2000x128 .f32) (x2 : Vec F S3x128x128 .f32) (x3 : Vec F S3x128 .f32) (x4 : Vec F S3x128x128 .f32) (x5 : Vec F S128 .f32) (x6 : Vec F S128 .f32) : Vec F S2000x128 .f32 :=
  View.canon [⟨r1_0, k1_pay1
    (k1_pay6 (k1_pay2 (View.ld x1 r1_0)) (k1_pay3 (View.ld x1 r1_0) (View.ld x0 r1_1) (View.ld x2 r1_2) (View.ld x4 r1_2) (View.ld x3 r1_3))
      (k1_pay4 (View.ld x0 r1_4)) (k1_pay5 (View.ld x2 r1_5)) (View.ld x4 r1_5) (View.ld x3 r1_6))
    (k1_pay7 (k1_pay2 (View.ld x1 r1_0)) (View.ld x0 r1_7) (View.ld x2 r1_8) (View.ld x4 r1_8) (View.ld x3 r1_9))
    (k1_pay8 (k1_pay2 (View.ld x1 r1_0)) (View.ld x0 r1_7) (View.ld x2 r1_8) (View.ld x4 r1_8) (View.ld x3 r1_9))
    (View.ld x5 r1_10) (View.ld x6 r1_10)⟩]

theorem cover1_7 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

set_option maxHeartbeats 1000000 in
theorem sound_kernel1 (c : Dev nD) (E : Set ℕ) (i : grid1.Coords) {arg0 : Memref sig .tc .vmem S3x2000x128 .f32} {harg0 : arg0.IsWhole} {arg1 : Memref sig .tc .vmem S2000x128 .f32} {harg1 : arg1.IsWhole} {arg2 : Memref sig .tc .vmem S3x128x128 .f32} {harg2 : arg2.IsWhole} {arg3 : Memref sig .tc .vmem S3x128 .f32} {harg3 : arg3.IsWhole} {arg4 : Memref sig .tc .vmem S3x128x128 .f32} {harg4 : arg4.IsWhole} {arg5 : Memref sig .tc .vmem S128 .f32} {harg5 : arg5.IsWhole} {arg6 : Memref sig .tc .vmem S128 .f32} {harg6 : arg6.IsWhole} {arg7 : Memref sig .tc .vmem S2000x128 .f32} {harg7 : arg7.IsWhole}
    {x0 : Vec F S3x2000x128 .f32} {x1 : Vec F S2000x128 .f32} {x2 : Vec F S3x128x128 .f32} {x3 : Vec F S3x128 .f32} {x4 : Vec F S3x128x128 .f32} {x5 : Vec F S128 .f32} {x6 : Vec F S128 .f32} {K : PUnit → sProp 𝕄} :
    iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ (∃ d, owns c arg7 fullShare d)
        ∗ (iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare (out1_7 x0 x1 x2 x3 x4 x5 x6)) -∗ K ⟨⟩))
      ⊢ wp frame (wpE (defs₀ (F := F)) Variants.none c none) E (cc1_kernel i arg0 harg0 arg1 harg1 arg2 harg2 arg3 harg3 arg4 harg4 arg5 harg5 arg6 harg6 arg7 harg7) K := by
  simp only [cc1_kernel_eq_skeleton]; unfold cc1_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1 (c : Dev nD) (w : Fin 8) (hw : (cfg1.win w).isOut = false) (t : Fin cfg1.N) (d) :
    (dat1 V c).before w t d = (dat1 V c).after w t := by
  fin_cases w <;> first
    | exact absurd hw (by decide)
    | exact ((dat1 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  sl_whnfR [defs₀, Defs.onTc]
  simp only [before1 V c 0 rfl, before1 V c 1 rfl, before1 V c 2 rfl, before1 V c 3 rfl, before1 V c 4 rfl, before1 V c 5 rfl, before1 V c 6 rfl]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel1 c Set.univ (grid1.coords t)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro Hw
  isplitl [HΦ]; · iexact HΦ
  isplitl [Ho]; · iexact Ho
  iexact Hw

end Cert.Kernel.Rgn

end
-- ==== Proof.KRegion2.lean ====
import proofs.«429923_j72335839199437_1_alg».proof.Proof.Gen.Kernel.Launch
import proofs.«429923_j72335839199437_1_alg».proof.Proof.Gen.Kernel.Skeleton
import proofs.«429923_j72335839199437_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x128 := Rect.unit (s := S2000x128) ![0, 0] S2000x128.size inb_S2000x128_S2000x128_0_0
abbrev r2_1 : Rect S3x2000x128 := Rect.unit (s := S3x2000x128) ![0, 0, 0] S1x2000x128.size inb_S3x2000x128_S1x2000x128_0_0_0
abbrev r2_2 : Rect S3x128x128 := Rect.unit (s := S3x128x128) ![0, 0, 0] S1x128x128.size inb_S3x128x128_S1x128x128_0_0_0
abbrev r2_3 : Rect S3x128 := Rect.unit (s := S3x128) ![0, 0] S1x128.size inb_S3x128_S1x128_0_0
abbrev r2_4 : Rect S3x2000x128 := Rect.unit (s := S3x2000x128) ![1, 0, 0] S1x2000x128.size inb_S3x2000x128_S1x2000x128_1_0_0
abbrev r2_5 : Rect S3x128x128 := Rect.unit (s := S3x128x128) ![1, 0, 0] S1x128x128.size inb_S3x128x128_S1x128x128_1_0_0
abbrev r2_6 : Rect S3x128 := Rect.unit (s := S3x128) ![1, 0] S1x128.size inb_S3x128_S1x128_1_0
abbrev r2_7 : Rect S3x2000x128 := Rect.unit (s := S3x2000x128) ![2, 0, 0] S1x2000x128.size inb_S3x2000x128_S1x2000x128_2_0_0
abbrev r2_8 : Rect S3x128x128 := Rect.unit (s := S3x128x128) ![2, 0, 0] S1x128x128.size inb_S3x128x128_S1x128x128_2_0_0
abbrev r2_9 : Rect S3x128 := Rect.unit (s := S3x128) ![2, 0] S1x128.size inb_S3x128_S1x128_2_0
abbrev r2_10 : Rect S128 := Rect.unit (s := S128) ![0] S128.size inb_S128_S128_0

def out2_7 (x0 : Vec F S3x2000x128 .f32) (x1 : Vec F S2000x128 .f32) (x2 : Vec F S3x128x128 .f32) (x3 : Vec F S3x128 .f32) (x4 : Vec F S3x128x128 .f32) (x5 : Vec F S128 .f32) (x6 : Vec F S128 .f32) : Vec F S2000x128 .f32 :=
  View.canon [⟨r2_0, k2_pay1 (k2_pay7 (k2_pay2 (View.ld x1 r2_0)) (k2_pay3 (View.ld x1 r2_0) (View.ld x0 r2_1) (View.ld x2 r2_2) (View.ld x4 r2_2) (View.ld x3 r2_3)) (k2_pay4 (View.ld x0 r2_4)) (k2_pay5 (View.ld x2 r2_5)) (k2_pay6 (View.ld x4 r2_5)) (View.ld x3 r2_6) (View.ld x0 r2_7) (View.ld x2 r2_8) (View.ld x4 r2_8) (View.ld x3 r2_9)) (k2_pay8 (k2_pay2 (View.ld x1 r2_0)) (k2_pay3 (View.ld x1 r2_0) (View.ld x0 r2_1) (View.ld x2 r2_2) (View.ld x4 r2_2) (View.ld x3 r2_3)) (k2_pay4 (View.ld x0 r2_4)) (k2_pay5 (View.ld x2 r2_5)) (k2_pay6 (View.ld x4 r2_5)) (View.ld x3 r2_6) (View.ld x0 r2_7) (View.ld x2 r2_8) (View.ld x4 r2_8) (View.ld x3 r2_9)) (k2_pay9 (k2_pay2 (View.ld x1 r2_0)) (k2_pay3 (View.ld x1 r2_0) (View.ld x0 r2_1) (View.ld x2 r2_2) (View.ld x4 r2_2) (View.ld x3 r2_3)) (k2_pay4 (View.ld x0 r2_4)) (k2_pay5 (View.ld x2 r2_5)) (k2_pay6 (View.ld x4 r2_5)) (View.ld x3 r2_6) (View.ld x0 r2_7) (View.ld x2 r2_8) (View.ld x4 r2_8) (View.ld x3 r2_9)) (Scalar.ofBits .f32 0x43000000#32) (View.ld x5 r2_10) (View.ld x6 r2_10)⟩]

theorem cover2_7 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

set_option maxHeartbeats 1000000 in
theorem sound_kernel2 (c : Dev nD) (E : Set ℕ) (i : grid2.Coords) {arg1 : Memref sig .tc .vmem S3x2000x128 .f32} {harg1 : arg1.IsWhole} {arg2 : Memref sig .tc .vmem S2000x128 .f32} {harg2 : arg2.IsWhole} {arg3 : Memref sig .tc .vmem S3x128x128 .f32} {harg3 : arg3.IsWhole} {arg4 : Memref sig .tc .vmem S3x128 .f32} {harg4 : arg4.IsWhole} {arg5 : Memref sig .tc .vmem S3x128x128 .f32} {harg5 : arg5.IsWhole} {arg6 : Memref sig .tc .vmem S128 .f32} {harg6 : arg6.IsWhole} {arg7 : Memref sig .tc .vmem S128 .f32} {harg7 : arg7.IsWhole} {arg8 : Memref sig .tc .vmem S2000x128 .f32} {harg8 : arg8.IsWhole}
    {x0 : Vec F S3x2000x128 .f32} {x1 : Vec F S2000x128 .f32} {x2 : Vec F S3x128x128 .f32} {x3 : Vec F S3x128 .f32} {x4 : Vec F S3x128x128 .f32} {x5 : Vec F S128 .f32} {x6 : Vec F S128 .f32} {K : PUnit → sProp 𝕄} :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ (∃ d, owns c arg8 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare (out2_7 x0 x1 x2 x3 x4 x5 x6)) -∗ K ⟨⟩))
      ⊢ wp frame (wpE (defs₀ (F := F)) Variants.none c none) E (cc2_kernel i arg1 harg1 arg2 harg2 arg3 harg3 arg4 harg4 arg5 harg5 arg6 harg6 arg7 harg7 arg8 harg8) K := by
  simp only [cc2_kernel_eq_skeleton]; unfold cc2_kernel_skel
  simp only [k2_part1_eq_skeleton]; unfold k2_part1_skel
  simp only [k2_part2_eq_skeleton]; unfold k2_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover2_7 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2 (c : Dev nD) (w : Fin 8) (hw : (cfg2.win w).isOut = false) (t : Fin cfg2.N) (d) :
    (dat2 V c).before w t d = (dat2 V c).after w t := by
  fin_cases w <;> first
    | exact absurd hw (by decide)
    | exact ((dat2 V c).before_in_eq_fetched _ rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  sl_whnfR [defs₀, Defs.onTc]
  simp only [before2 V c 0 rfl, before2 V c 1 rfl, before2 V c 2 rfl, before2 V c 3 rfl, before2 V c 4 rfl, before2 V c 5 rfl, before2 V c 6 rfl]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel2 c Set.univ (grid2.coords t)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro Hw
  isplitl [HΦ]; · iexact HΦ
  isplitl [Ho]; · iexact Ho
  iexact Hw

end Cert.Kernel.Rgn

end
-- ==== Proof.KRun.lean ====
import proofs.«429923_j72335839199437_1_alg».proof.Proof.Gen.Kernel.Regions
import proofs.«429923_j72335839199437_1_alg».proof.Proof.KRegion0
import proofs.«429923_j72335839199437_1_alg».proof.Proof.KRegion1
import proofs.«429923_j72335839199437_1_alg».proof.Proof.KRegion2
import Idealize.ShloMosaic.Lib.Pipeline.RegionsLoop

noncomputable section

namespace Cert.Kernel.RunH

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg RegionSeg)
open Cert.Kernel Cert.Kernel.Gen Cert.Kernel.Rgn

variable {F : FTy → Type} [FloatOps F]

local notation "𝕄" => MT nD τ sig Unit (Elt F) ℕ (UR sig nD τ) ℕ

variable (m : (ℓ : Loc nD τ sig) → Buf (Elt F) ℓ)

abbrev ent0 (c : Dev nD) (b : Ref sig .tc) : Buf (Elt F) ((c : Thread nD τ).loc b) := V1 m c b

def o2 (c : Dev nD) : Buf (Elt F) ((c : Thread nD τ).loc main_v5) := (dat0 (ent0 m) c).arrAt 3 cfg0.N

def U2 (c : Dev nD) : Valuation τ sig (Elt F) := Function.update (V1 m c) main_v5 (o2 m c)

def U9 (c : Dev nD) : Valuation τ sig (Elt F) := StableHlo.after hostOps1_6 (StableHlo.after hostOps1_5 (StableHlo.after hostOps1_4 (StableHlo.after hostOps1_3 (StableHlo.after hostOps1_2 (StableHlo.after hostOps1_1 (StableHlo.after hostOps1 (U2 m c)))))))

abbrev ent1 (c : Dev nD) (b : Ref sig .tc) : Buf (Elt F) ((c : Thread nD τ).loc b) := U9 m c b

def o10 (c : Dev nD) : Buf (Elt F) ((c : Thread nD τ).loc main_v68) := (dat1 (ent1 m) c).arrAt 7 cfg1.N

def U10 (c : Dev nD) : Valuation τ sig (Elt F) := Function.update (U9 m c) main_v68 (o10 m c)

def U17 (c : Dev nD) : Valuation τ sig (Elt F) := StableHlo.after hostOps2_6 (StableHlo.after hostOps2_5 (StableHlo.after hostOps2_4 (StableHlo.after hostOps2_3 (StableHlo.after hostOps2_2 (StableHlo.after hostOps2_1 (StableHlo.after hostOps2 (U10 m c)))))))

abbrev ent2 (c : Dev nD) (b : Ref sig .tc) : Buf (Elt F) ((c : Thread nD τ).loc b) := U17 m c b

def o18 (c : Dev nD) : Buf (Elt F) ((c : Thread nD τ).loc main_v125) := (dat2 (ent2 m) c).arrAt 7 cfg2.N

def U18 (c : Dev nD) : Valuation τ sig (Elt F) := Function.update (U17 m c) main_v125 (o18 m c)

def outs : Outs (F := F) := fun J r c => match J with
  | 2 => U2 m c r
  | 10 => U10 m c r
  | 18 => U18 m c r
  | _ => V0 m c r

-- An update at `b` by what an update at `b` reads there is that update.
theorem upd {V V' : Valuation τ sig (Elt F)} (h : V = V') (b : DevRef τ sig) (x : b.ty.Contents (Elt F)) :
    Function.update V b (Function.update V' b x b) = Function.update V' b x := by rw [h, Function.update_self]

theorem V2_eq (c : Dev nD) : V2 m (outs m) c = U2 m c := upd rfl _ _
theorem V9_eq (c : Dev nD) : V9 m (outs m) c = U9 m c := by rw [U9, ← V2_eq]
theorem V10_eq (c : Dev nD) : V10 m (outs m) c = U10 m c := upd (V9_eq m c) _ _
theorem V17_eq (c : Dev nD) : V17 m (outs m) c = U17 m c := by rw [U17, ← V10_eq]
theorem V18_eq (c : Dev nD) : V18 m (outs m) c = U18 m c := upd (V17_eq m c) _ _

def pdats : (p : Fin 3) → (c : Dev nD) → Dat τ (Elt F) Unit ℕ (UR sig nD τ) ℕ (cfgs p) c
  | ⟨0, _⟩ => fun c => dat0 (ent0 m) c
  | ⟨1, _⟩ => fun c => dat1 (ent1 m) c
  | ⟨2, _⟩ => fun c => dat2 (ent2 m) c

theorem plain (p : Fin 3) (c : Dev nD) : (∀ w, (pdats m p c).q w = fullShare) ∧ ∀ t, (pdats m p c).owed t = 0
    ∧ (pdats m p c).recorded t = Set.univ ∧ (pdats m p c).Φ t = Pipeline.ΦA (cfgs p).spec c :=
  match p with | ⟨0, _⟩ | ⟨1, _⟩ | ⟨2, _⟩ => ⟨fun _ => rfl, fun _ => ⟨rfl, rfl, rfl⟩⟩

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev E : Fin 4 → Dev nD → sProp 𝕄 := fun _ c => R c
abbrev T (V : Valuation τ sig (Elt F)) (c : Dev nD) : sProp 𝕄 := iprop(StableHlo.held (c : Thread nD τ) (Pipeline.ucRefs τ sig) V ∗ R c)

theorem T_congr {V V' : Valuation τ sig (Elt F)} (h : V = V') (c : Dev nD) : T V c ⊢ T V' c := by rw [h]

-- `W c` with window `o`'s array at its final contents.
abbrev exitV (p : Fin 3) (o : Fin (cfgs p).W) (W : Dev nD → Valuation τ sig (Elt F)) (c : Dev nD) : Valuation τ sig (Elt F) :=
  Function.update (W c) (Pipeline.arrRef (cfgs p).spec o) ((pdats m p c).arrAt o (cfgs p).N)

-- Across a region only its output window's array changes; every other buffer keeps its entry contents.
def reg (p : Fin 3) (lf : Pipeline.LaunchFacts (nD := nD) (τ := τ) cfgs p) (o : Fin (cfgs p).W)
    (ho : ∀ w, w ≠ o → ((cfgs p).win w).isOut = false) (W : Dev nD → Valuation τ sig (Elt F))
    (hb : ∀ c, BodyObligation (pdats m p c) (defs₀ (F := F)) 𝒱₀ () Set.univ)
    (hA : ∀ c w, (pdats m p c).A w = W c (Pipeline.arrRef (cfgs p).spec w)) :
    RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c t => ((plain m p c).2 t).1
  pre c := T (W c) c
  post c := T (exitV m p o W c) c
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hsplit := Pipeline.arrays_of_unscopedBufs (p := p) (pcfgs (F := F)) adm (pdats m) lf.win lf.arr_whole c
      ((pdats m p c).share_full (plain m p c).1) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [((plain m p c).2 0).1]
      icases HO with ⟨%W, HO⟩; iexists W; isplitr; · ipureintro; exact fun _ _ => Or.inl (((plain m p c).2 0).2.1 ▸ trivial)
      iexact HO
    isplitl [Hp] <;> iassumption
  hin c := by
    rw [((plain m p c).2 0).2.2]; unfold Pipeline.ΦA
    iintro ⟨Hp, -, Hr⟩
    isplitl [Hr] <;> iassumption
  hout c := by
    rw [Pipeline.ownSems0_none, ((plain m p c).2 (Fin.last _)).2.2]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (plain m p c).1)
      (fun b => W c b) (fun b => exitV m p o W c b) ((pdats m p c).arrAt · (cfgs p).N)
      (fun w => by
        show _ = exitV m p o W c (Pipeline.arrRef (cfgs p).spec w)
        by_cases h : w = o
        · subst h; simp only [exitV, Function.update_self]
        · rw [exitV, Function.update_of_ne (StableHlo.devRef_ne_of_ne fun e => h (lf.win.arr_inj e))]
          exact ((pdats m p c).arrAt_in w (ho w h) _).trans (hA c w))
      (fun b hb => Function.update_of_ne
        (StableHlo.devRef_ne_of_ne fun e => hb (Finset.mem_image.mpr ⟨o, Finset.mem_univ _, e.symm⟩)) _ _)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [((plain m p c).2 (Fin.last _)).1]
    icases HO with ⟨%W, -, HO⟩; iexists W; iexact HO

def reg0 := reg m 0 launch0 3 (by decide) (V1 m) (body_obligation0 (ent0 m)) (A_eq0 (ent0 m))
def reg1 := reg m 1 launch1 7 (by decide) (U9 m) (body_obligation1 (ent1 m)) (A_eq1 (ent1 m))
def reg2 := reg m 2 launch2 7 (by decide) (U17 m) (body_obligation2 (ent2 m)) (A_eq2 (ent2 m))

theorem run_all (ρ : Dev nD → PrngReg) : θ_run defs (onTc (τ := τ) (main (F := F))) ⟨m, fun _ => 0, ρ⟩ (fun r => ∀ c : Dev nD,
    ∀ b ∈ Pipeline.ucRefs τ sig, r.2.mem ((c : Thread nD τ).1, b) = V18 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m))
    (fun c Q => by rewrite [main_chain c, Seg.run_eq_chain]; exact .of_eq (by chain_rfl))
    (fun c => by simp only [segs, Seg.pipes_host, Seg.pipes_region, Seg.pipes_nil]; decide) 0 (fun _ _ => rfl) (fun _ => BI.emp)
    (initOf (Pipeline.cells cfgs cellOf_inj) (Pipeline.launchToks cfgs cellOf_inj)) ?_
    (T₀ := fun c => T (V0 m c) c)
    (Tₙ := fun c => StableHlo.held (c : Thread nD τ) (Pipeline.ucRefs τ sig) (V18 m (outs m) c))
    (hch := fun c => ⟨.rfl, .rfl, T_congr (V2_eq m c).symm c, .rfl, .rfl, .rfl, .rfl, .rfl, .rfl, T_congr (V9_eq m c) c,
      T_congr (V10_eq m c).symm c, .rfl, .rfl, .rfl, .rfl, .rfl, .rfl, T_congr (V17_eq m c) c,
      (T_congr (V18_eq m c).symm c).trans (sep_mono .rfl (by iintro ⟨-, H⟩; iexact H))⟩)
    (hinit := Pipeline.initEach L lv fun c => ?_)
    (QY := fun c s => ∀ b ∈ Pipeline.ucRefs τ sig, s.mem ((c : Thread nD τ).1, b) = V18 m (outs m) c b)
    (hfin := fun c s' => (pointsTo_read_all (Pipeline.ucRefs τ sig) (fun b => ((c : Thread nD τ).1, b)) (V18 m (outs m) c) s').trans fupd_intro)
    (hQ := fun _ h => h)
  · rw [ownU_emb₁, BI.bigSep_emp_const]
    iintro H; imodintro
    isplitl [H]; · iexact H
    iempintro
  · refine (sep_mono (sep_mono (Entails.of_eq (Pipeline.unscopedBufs_held c (V0 m c))) .rfl) .rfl).trans ?_
    iintro ⟨⟨Hb, -, HO, -, Hp, -⟩, -⟩
    imodintro
    isplitl [Hb]; · iexact Hb
    isplitl [Hp]; · iexists _; iexact Hp
    iexists ∅; iexact HO

theorem read_of (s : MemSt nD τ sig (Elt F)) (h : ∀ c : Dev nD, ∀ b ∈ Pipeline.ucRefs τ sig, s.mem ((c : Thread nD τ).1, b) = V18 m (outs m) c b)
    (c : Dev nD) (b : Ref sig .tc) (hb : ¬ (Proc.devRef .tc b : DevRef τ sig).isScoped) {x : Buf (Elt F) ((c : Thread nD τ).loc b)}
    (hx : V18 m (outs m) c b = x) : s.mem ((c.tc : Thread nD τ).loc b) = x :=
  (h c _ (Finset.mem_filter.mpr ⟨StableHlo.devRef_mem_tcRefs b, hb⟩)).trans hx

theorem run_result (ρ : Dev nD → PrngReg) : θ_run defs (onTc (τ := τ) (main (F := F))) ⟨m, fun _ => 0, ρ⟩ (fun r => ∀ c : Dev nD,
      r.2.mem ((c.tc : Thread nD τ).loc main_v125) = o18 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    have k := read_of m r.2 h c
    ⟨k _ (by decide) ((congrFun (V18_eq m c) _).trans (Function.update_self _ _ _)),
    k _ (by decide) (V18_main_arg0 m _ c),
    k _ (by decide) (V18_main_arg1 m _ c),
    k _ (by decide) (V18_main_arg2 m _ c),
    k _ (by decide) (V18_main_arg3 m _ c),
    k _ (by decide) (V18_main_arg4 m _ c),
    k _ (by decide) (V18_main_arg5 m _ c),
    k _ (by decide) (V18_main_arg6 m _ c),
    k _ (by decide) (V18_main_arg7 m _ c),
    k _ (by decide) (V18_main_arg8 m _ c),
    k _ (by decide) (V18_main_arg9 m _ c),
    k _ (by decide) (V18_main_arg10 m _ c),
    k _ (by decide) (V18_main_arg11 m _ c),
    k _ (by decide) (V18_main_arg12 m _ c),
    k _ (by decide) (V18_main_arg13 m _ c)⟩) (run_all m ρ)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => (h c).2) (run_result m ρ)

end Cert.Kernel.RunH

end
-- ==== Proof.KIRegion0.lean ====
import proofs.«429923_j72335839199437_1_alg».proof.Proof.Gen.KernelIdeal.Launch
import proofs.«429923_j72335839199437_1_alg».proof.Proof.Gen.KernelIdeal.Skeleton
import proofs.«429923_j72335839199437_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S3x128x128 := Rect.unit (s := S3x128x128) ![0, 0, 0] S1x128x128.size inb_S3x128x128_S1x128x128_0_0_0
abbrev r0_2 : Rect S3x128 := Rect.unit (s := S3x128) ![0, 0] S1x128.size inb_S3x128_S1x128_0_0
abbrev r0_3 : Rect S3x2000x128 := Rect.unit (s := S3x2000x128) ![0, 0, 0] S1x2000x128.size inb_S3x2000x128_S1x2000x128_0_0_0
abbrev r0_4 : Rect S3x128x128 := Rect.unit (s := S3x128x128) ![1, 0, 0] S1x128x128.size inb_S3x128x128_S1x128x128_1_0_0
abbrev r0_5 : Rect S3x128 := Rect.unit (s := S3x128) ![1, 0] S1x128.size inb_S3x128_S1x128_1_0
abbrev r0_6 : Rect S3x2000x128 := Rect.unit (s := S3x2000x128) ![1, 0, 0] S1x2000x128.size inb_S3x2000x128_S1x2000x128_1_0_0
abbrev r0_7 : Rect S3x128x128 := Rect.unit (s := S3x128x128) ![2, 0, 0] S1x128x128.size inb_S3x128x128_S1x128x128_2_0_0
abbrev r0_8 : Rect S3x128 := Rect.unit (s := S3x128) ![2, 0] S1x128.size inb_S3x128_S1x128_2_0
abbrev r0_9 : Rect S3x2000x128 := Rect.unit (s := S3x2000x128) ![2, 0, 0] S1x2000x128.size inb_S3x2000x128_S1x2000x128_2_0_0

def out0_3 (x0 : Vec F S2000x128 .f32) (x1 : Vec F S3x128x128 .f32) (x2 : Vec F S3x128 .f32) : Vec F S3x2000x128 .f32 :=
  View.canon [⟨r0_9, k0_pay1 (k0_pay2 (View.ld x0 r0_0)) (k0_pay5 (View.ld x1 r0_7)) (View.ld x2 r0_8)⟩,
    ⟨r0_6, k0_pay4 (View.ld x0 r0_0) (View.ld x1 r0_4) (View.ld x2 r0_5)⟩,
    ⟨r0_3, k0_pay3 (View.ld x0 r0_0) (View.ld x1 r0_1) (View.ld x2 r0_2)⟩]

theorem cover0_3 (p0 : Vec F S1x2000x128 .f32) (p1 : Vec F S1x2000x128 .f32) (p2 : Vec F S1x2000x128 .f32) (y : S3x2000x128.Idx) :
    ∃ pc ∈ ([⟨r0_9, p0⟩, ⟨r0_6, p1⟩, ⟨r0_3, p2⟩] : List (View.Piece (Elt F) S3x2000x128 .f32)), y ∈ pc.1.set :=
  View.cover_of_tiled [⟨r0_9, p0⟩, ⟨r0_6, p1⟩, ⟨r0_3, p2⟩] S1x2000x128.size (by rfl) y

set_option maxHeartbeats 1000000 in
theorem sound_kernel0 (c : Dev nD) (E : Set ℕ) (i : grid0.Coords) {arg1 : Memref sig .tc .vmem S2000x128 .f32} {harg1 : arg1.IsWhole} {arg2 : Memref sig .tc .vmem S3x128x128 .f32} {harg2 : arg2.IsWhole} {arg3 : Memref sig .tc .vmem S3x128 .f32} {harg3 : arg3.IsWhole} {arg4 : Memref sig .tc .vmem S3x2000x128 .f32} {harg4 : arg4.IsWhole}
    {x0 : Vec F S2000x128 .f32} {x1 : Vec F S3x128x128 .f32} {x2 : Vec F S3x128 .f32} {K : PUnit → sProp 𝕄} :
    iprop(owns c arg1 fullShare x0 ∗ owns c arg2 fullShare x1 ∗ owns c arg3 fullShare x2 ∗ (∃ d, owns c arg4 fullShare d)
        ∗ (iprop(owns c arg1 fullShare x0 ∗ owns c arg2 fullShare x1 ∗ owns c arg3 fullShare x2 ∗ owns c arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _ _ _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0_3 (iblk0 V c 0 t) (iblk0 V c 1 t) (iblk0 V c 2 t) := by dsimp only [dat0]

theorem before0 (c : Dev nD) (w : Fin 4) (hw : (cfg0.win w).isOut = false) (t : Fin cfg0.N) (d) :
    (dat0 V c).before w t d = (dat0 V c).after w t := by
  fin_cases w <;> first
    | exact absurd hw (by decide)
    | exact ((dat0 V c).before_in_eq_fetched _ rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  sl_whnfR [defs₀, Defs.onTc]
  simp only [before0 V c 0 rfl, before0 V c 1 rfl, before0 V c 2 rfl]
  dsimp only [dat0]
  iintro ⟨HΦ, Ho, ⟨%d0, H0⟩, ⟨%d1, H1⟩, ⟨%d2, H2⟩, ⟨%d3, H3⟩⟩
  iapply sound_kernel0 c Set.univ (grid0.coords t)
  isplitl [H0]; · iexact H0
  isplitl [H1]; · iexact H1
  isplitl [H2]; · iexact H2
  isplitl [H3]; · iexists _; iexact H3
  iintro Hw
  isplitl [HΦ]; · iexact HΦ
  isplitl [Ho]; · iexact Ho
  iexact Hw

end Cert.KernelIdeal.Rgn

end
-- ==== Proof.KIRegion1.lean ====
import proofs.«429923_j72335839199437_1_alg».proof.Proof.Gen.KernelIdeal.Launch
import proofs.«429923_j72335839199437_1_alg».proof.Proof.Gen.KernelIdeal.Skeleton
import proofs.«429923_j72335839199437_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x128 := Rect.unit (s := S2000x128) ![0, 0] S2000x128.size inb_S2000x128_S2000x128_0_0
abbrev r1_1 : Rect S3x2000x128 := Rect.unit (s := S3x2000x128) ![0, 0, 0] S1x2000x128.size inb_S3x2000x128_S1x2000x128_0_0_0
abbrev r1_2 : Rect S3x128x128 := Rect.unit (s := S3x128x128) ![0, 0, 0] S1x128x128.size inb_S3x128x128_S1x128x128_0_0_0
abbrev r1_3 : Rect S3x128 := Rect.unit (s := S3x128) ![0, 0] S1x128.size inb_S3x128_S1x128_0_0
abbrev r1_4 : Rect S3x2000x128 := Rect.unit (s := S3x2000x128) ![1, 0, 0] S1x2000x128.size inb_S3x2000x128_S1x2000x128_1_0_0
abbrev r1_5 : Rect S3x128x128 := Rect.unit (s := S3x128x128) ![1, 0, 0] S1x128x128.size inb_S3x128x128_S1x128x128_1_0_0
abbrev r1_6 : Rect S3x128 := Rect.unit (s := S3x128) ![1, 0] S1x128.size inb_S3x128_S1x128_1_0
abbrev r1_7 : Rect S3x2000x128 := Rect.unit (s := S3x2000x128) ![2, 0, 0] S1x2000x128.size inb_S3x2000x128_S1x2000x128_2_0_0
abbrev r1_8 : Rect S3x128x128 := Rect.unit (s := S3x128x128) ![2, 0, 0] S1x128x128.size inb_S3x128x128_S1x128x128_2_0_0
abbrev r1_9 : Rect S3x128 := Rect.unit (s := S3x128) ![2, 0] S1x128.size inb_S3x128_S1x128_2_0
abbrev r1_10 : Rect S128 := Rect.unit (s := S128) ![0] S128.size inb_S128_S128_0

def out1_7 (x0 : Vec F S3x2000x128 .f32) (x1 : Vec F S2000x128 .f32) (x2 : Vec F S3x128x128 .f32) (x3 : Vec F S3x128 .f32) (x4 : Vec F S3x128x128 .f32) (x5 : Vec F S128 .f32) (x6 : Vec F S128 .f32) : Vec F S2000x128 .f32 :=
  View.canon [⟨r1_0, k1_pay1
    (k1_pay6 (k1_pay2 (View.ld x1 r1_0)) (k1_pay3 (View.ld x1 r1_0) (View.ld x0 r1_1) (View.ld x2 r1_2) (View.ld x4 r1_2) (View.ld x3 r1_3))
      (k1_pay4 (View.ld x0 r1_4)) (k1_pay5 (View.ld x2 r1_5)) (View.ld x4 r1_5) (View.ld x3 r1_6))
    (k1_pay7 (k1_pay2 (View.ld x1 r1_0)) (View.ld x0 r1_7) (View.ld x2 r1_8) (View.ld x4 r1_8) (View.ld x3 r1_9))
    (k1_pay8 (k1_pay2 (View.ld x1 r1_0)) (View.ld x0 r1_7) (View.ld x2 r1_8) (View.ld x4 r1_8) (View.ld x3 r1_9))
    (View.ld x5 r1_10) (View.ld x6 r1_10)⟩]

theorem cover1_7 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

set_option maxHeartbeats 1000000 in
theorem sound_kernel1 (c : Dev nD) (E : Set ℕ) (i : grid1.Coords) {arg0 : Memref sig .tc .vmem S3x2000x128 .f32} {harg0 : arg0.IsWhole} {arg1 : Memref sig .tc .vmem S2000x128 .f32} {harg1 : arg1.IsWhole} {arg2 : Memref sig .tc .vmem S3x128x128 .f32} {harg2 : arg2.IsWhole} {arg3 : Memref sig .tc .vmem S3x128 .f32} {harg3 : arg3.IsWhole} {arg4 : Memref sig .tc .vmem S3x128x128 .f32} {harg4 : arg4.IsWhole} {arg5 : Memref sig .tc .vmem S128 .f32} {harg5 : arg5.IsWhole} {arg6 : Memref sig .tc .vmem S128 .f32} {harg6 : arg6.IsWhole} {arg7 : Memref sig .tc .vmem S2000x128 .f32} {harg7 : arg7.IsWhole}
    {x0 : Vec F S3x2000x128 .f32} {x1 : Vec F S2000x128 .f32} {x2 : Vec F S3x128x128 .f32} {x3 : Vec F S3x128 .f32} {x4 : Vec F S3x128x128 .f32} {x5 : Vec F S128 .f32} {x6 : Vec F S128 .f32} {K : PUnit → sProp 𝕄} :
    iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ (∃ d, owns c arg7 fullShare d)
        ∗ (iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare (out1_7 x0 x1 x2 x3 x4 x5 x6)) -∗ K ⟨⟩))
      ⊢ wp frame (wpE (defs₀ (F := F)) Variants.none c none) E (cc1_kernel i arg0 harg0 arg1 harg1 arg2 harg2 arg3 harg3 arg4 harg4 arg5 harg5 arg6 harg6 arg7 harg7) K := by
  simp only [cc1_kernel_eq_skeleton]; unfold cc1_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1 (c : Dev nD) (w : Fin 8) (hw : (cfg1.win w).isOut = false) (t : Fin cfg1.N) (d) :
    (dat1 V c).before w t d = (dat1 V c).after w t := by
  fin_cases w <;> first
    | exact absurd hw (by decide)
    | exact ((dat1 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  sl_whnfR [defs₀, Defs.onTc]
  simp only [before1 V c 0 rfl, before1 V c 1 rfl, before1 V c 2 rfl, before1 V c 3 rfl, before1 V c 4 rfl, before1 V c 5 rfl, before1 V c 6 rfl]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel1 c Set.univ (grid1.coords t)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro Hw
  isplitl [HΦ]; · iexact HΦ
  isplitl [Ho]; · iexact Ho
  iexact Hw

end Cert.KernelIdeal.Rgn

end
-- ==== Proof.KIRegion2.lean ====
import proofs.«429923_j72335839199437_1_alg».proof.Proof.Gen.KernelIdeal.Launch
import proofs.«429923_j72335839199437_1_alg».proof.Proof.Gen.KernelIdeal.Skeleton
import proofs.«429923_j72335839199437_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x128 := Rect.unit (s := S2000x128) ![0, 0] S2000x128.size inb_S2000x128_S2000x128_0_0
abbrev r2_1 : Rect S3x2000x128 := Rect.unit (s := S3x2000x128) ![0, 0, 0] S1x2000x128.size inb_S3x2000x128_S1x2000x128_0_0_0
abbrev r2_2 : Rect S3x128x128 := Rect.unit (s := S3x128x128) ![0, 0, 0] S1x128x128.size inb_S3x128x128_S1x128x128_0_0_0
abbrev r2_3 : Rect S3x128 := Rect.unit (s := S3x128) ![0, 0] S1x128.size inb_S3x128_S1x128_0_0
abbrev r2_4 : Rect S3x2000x128 := Rect.unit (s := S3x2000x128) ![1, 0, 0] S1x2000x128.size inb_S3x2000x128_S1x2000x128_1_0_0
abbrev r2_5 : Rect S3x128x128 := Rect.unit (s := S3x128x128) ![1, 0, 0] S1x128x128.size inb_S3x128x128_S1x128x128_1_0_0
abbrev r2_6 : Rect S3x128 := Rect.unit (s := S3x128) ![1, 0] S1x128.size inb_S3x128_S1x128_1_0
abbrev r2_7 : Rect S3x2000x128 := Rect.unit (s := S3x2000x128) ![2, 0, 0] S1x2000x128.size inb_S3x2000x128_S1x2000x128_2_0_0
abbrev r2_8 : Rect S3x128x128 := Rect.unit (s := S3x128x128) ![2, 0, 0] S1x128x128.size inb_S3x128x128_S1x128x128_2_0_0
abbrev r2_9 : Rect S3x128 := Rect.unit (s := S3x128) ![2, 0] S1x128.size inb_S3x128_S1x128_2_0
abbrev r2_10 : Rect S128 := Rect.unit (s := S128) ![0] S128.size inb_S128_S128_0

def out2_7 (x0 : Vec F S3x2000x128 .f32) (x1 : Vec F S2000x128 .f32) (x2 : Vec F S3x128x128 .f32) (x3 : Vec F S3x128 .f32) (x4 : Vec F S3x128x128 .f32) (x5 : Vec F S128 .f32) (x6 : Vec F S128 .f32) : Vec F S2000x128 .f32 :=
  View.canon [⟨r2_0, k2_pay1 (k2_pay7 (k2_pay2 (View.ld x1 r2_0)) (k2_pay3 (View.ld x1 r2_0) (View.ld x0 r2_1) (View.ld x2 r2_2) (View.ld x4 r2_2) (View.ld x3 r2_3)) (k2_pay4 (View.ld x0 r2_4)) (k2_pay5 (View.ld x2 r2_5)) (k2_pay6 (View.ld x4 r2_5)) (View.ld x3 r2_6) (View.ld x0 r2_7) (View.ld x2 r2_8) (View.ld x4 r2_8) (View.ld x3 r2_9)) (k2_pay8 (k2_pay2 (View.ld x1 r2_0)) (k2_pay3 (View.ld x1 r2_0) (View.ld x0 r2_1) (View.ld x2 r2_2) (View.ld x4 r2_2) (View.ld x3 r2_3)) (k2_pay4 (View.ld x0 r2_4)) (k2_pay5 (View.ld x2 r2_5)) (k2_pay6 (View.ld x4 r2_5)) (View.ld x3 r2_6) (View.ld x0 r2_7) (View.ld x2 r2_8) (View.ld x4 r2_8) (View.ld x3 r2_9)) (k2_pay9 (k2_pay2 (View.ld x1 r2_0)) (k2_pay3 (View.ld x1 r2_0) (View.ld x0 r2_1) (View.ld x2 r2_2) (View.ld x4 r2_2) (View.ld x3 r2_3)) (k2_pay4 (View.ld x0 r2_4)) (k2_pay5 (View.ld x2 r2_5)) (k2_pay6 (View.ld x4 r2_5)) (View.ld x3 r2_6) (View.ld x0 r2_7) (View.ld x2 r2_8) (View.ld x4 r2_8) (View.ld x3 r2_9)) (Scalar.ofBits .f32 0x43000000#32) (View.ld x5 r2_10) (View.ld x6 r2_10)⟩]

theorem cover2_7 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

set_option maxHeartbeats 1000000 in
theorem sound_kernel2 (c : Dev nD) (E : Set ℕ) (i : grid2.Coords) {arg1 : Memref sig .tc .vmem S3x2000x128 .f32} {harg1 : arg1.IsWhole} {arg2 : Memref sig .tc .vmem S2000x128 .f32} {harg2 : arg2.IsWhole} {arg3 : Memref sig .tc .vmem S3x128x128 .f32} {harg3 : arg3.IsWhole} {arg4 : Memref sig .tc .vmem S3x128 .f32} {harg4 : arg4.IsWhole} {arg5 : Memref sig .tc .vmem S3x128x128 .f32} {harg5 : arg5.IsWhole} {arg6 : Memref sig .tc .vmem S128 .f32} {harg6 : arg6.IsWhole} {arg7 : Memref sig .tc .vmem S128 .f32} {harg7 : arg7.IsWhole} {arg8 : Memref sig .tc .vmem S2000x128 .f32} {harg8 : arg8.IsWhole}
    {x0 : Vec F S3x2000x128 .f32} {x1 : Vec F S2000x128 .f32} {x2 : Vec F S3x128x128 .f32} {x3 : Vec F S3x128 .f32} {x4 : Vec F S3x128x128 .f32} {x5 : Vec F S128 .f32} {x6 : Vec F S128 .f32} {K : PUnit → sProp 𝕄} :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ (∃ d, owns c arg8 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare (out2_7 x0 x1 x2 x3 x4 x5 x6)) -∗ K ⟨⟩))
      ⊢ wp frame (wpE (defs₀ (F := F)) Variants.none c none) E (cc2_kernel i arg1 harg1 arg2 harg2 arg3 harg3 arg4 harg4 arg5 harg5 arg6 harg6 arg7 harg7 arg8 harg8) K := by
  simp only [cc2_kernel_eq_skeleton]; unfold cc2_kernel_skel
  simp only [k2_part1_eq_skeleton]; unfold k2_part1_skel
  simp only [k2_part2_eq_skeleton]; unfold k2_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover2_7 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2 (c : Dev nD) (w : Fin 8) (hw : (cfg2.win w).isOut = false) (t : Fin cfg2.N) (d) :
    (dat2 V c).before w t d = (dat2 V c).after w t := by
  fin_cases w <;> first
    | exact absurd hw (by decide)
    | exact ((dat2 V c).before_in_eq_fetched _ rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  sl_whnfR [defs₀, Defs.onTc]
  simp only [before2 V c 0 rfl, before2 V c 1 rfl, before2 V c 2 rfl, before2 V c 3 rfl, before2 V c 4 rfl, before2 V c 5 rfl, before2 V c 6 rfl]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel2 c Set.univ (grid2.coords t)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro Hw
  isplitl [HΦ]; · iexact HΦ
  isplitl [Ho]; · iexact Ho
  iexact Hw

end Cert.KernelIdeal.Rgn

end
-- ==== Proof.KIRun.lean ====
import proofs.«429923_j72335839199437_1_alg».proof.Proof.Gen.KernelIdeal.Regions
import proofs.«429923_j72335839199437_1_alg».proof.Proof.KIRegion0
import proofs.«429923_j72335839199437_1_alg».proof.Proof.KIRegion1
import proofs.«429923_j72335839199437_1_alg».proof.Proof.KIRegion2
import Idealize.ShloMosaic.Lib.Pipeline.RegionsLoop

noncomputable section

namespace Cert.KernelIdeal.RunH

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg RegionSeg)
open Cert.KernelIdeal Cert.KernelIdeal.Gen Cert.KernelIdeal.Rgn

variable {F : FTy → Type} [FloatOps F]

local notation "𝕄" => MT nD τ sig Unit (Elt F) ℕ (UR sig nD τ) ℕ

variable (m : (ℓ : Loc nD τ sig) → Buf (Elt F) ℓ)

abbrev ent0 (c : Dev nD) (b : Ref sig .tc) : Buf (Elt F) ((c : Thread nD τ).loc b) := V1 m c b

def o2 (c : Dev nD) : Buf (Elt F) ((c : Thread nD τ).loc main_v5) := (dat0 (ent0 m) c).arrAt 3 cfg0.N

def U2 (c : Dev nD) : Valuation τ sig (Elt F) := Function.update (V1 m c) main_v5 (o2 m c)

def U9 (c : Dev nD) : Valuation τ sig (Elt F) := StableHlo.after hostOps1_6 (StableHlo.after hostOps1_5 (StableHlo.after hostOps1_4 (StableHlo.after hostOps1_3 (StableHlo.after hostOps1_2 (StableHlo.after hostOps1_1 (StableHlo.after hostOps1 (U2 m c)))))))

abbrev ent1 (c : Dev nD) (b : Ref sig .tc) : Buf (Elt F) ((c : Thread nD τ).loc b) := U9 m c b

def o10 (c : Dev nD) : Buf (Elt F) ((c : Thread nD τ).loc main_v68) := (dat1 (ent1 m) c).arrAt 7 cfg1.N

def U10 (c : Dev nD) : Valuation τ sig (Elt F) := Function.update (U9 m c) main_v68 (o10 m c)

def U17 (c : Dev nD) : Valuation τ sig (Elt F) := StableHlo.after hostOps2_6 (StableHlo.after hostOps2_5 (StableHlo.after hostOps2_4 (StableHlo.after hostOps2_3 (StableHlo.after hostOps2_2 (StableHlo.after hostOps2_1 (StableHlo.after hostOps2 (U10 m c)))))))

abbrev ent2 (c : Dev nD) (b : Ref sig .tc) : Buf (Elt F) ((c : Thread nD τ).loc b) := U17 m c b

def o18 (c : Dev nD) : Buf (Elt F) ((c : Thread nD τ).loc main_v125) := (dat2 (ent2 m) c).arrAt 7 cfg2.N

def U18 (c : Dev nD) : Valuation τ sig (Elt F) := Function.update (U17 m c) main_v125 (o18 m c)

def outs : Outs (F := F) := fun J r c => match J with
  | 2 => U2 m c r
  | 10 => U10 m c r
  | 18 => U18 m c r
  | _ => V0 m c r

-- An update at `b` by what an update at `b` reads there is that update.
theorem upd {V V' : Valuation τ sig (Elt F)} (h : V = V') (b : DevRef τ sig) (x : b.ty.Contents (Elt F)) :
    Function.update V b (Function.update V' b x b) = Function.update V' b x := by rw [h, Function.update_self]

theorem V2_eq (c : Dev nD) : V2 m (outs m) c = U2 m c := upd rfl _ _
theorem V9_eq (c : Dev nD) : V9 m (outs m) c = U9 m c := by rw [U9, ← V2_eq]
theorem V10_eq (c : Dev nD) : V10 m (outs m) c = U10 m c := upd (V9_eq m c) _ _
theorem V17_eq (c : Dev nD) : V17 m (outs m) c = U17 m c := by rw [U17, ← V10_eq]
theorem V18_eq (c : Dev nD) : V18 m (outs m) c = U18 m c := upd (V17_eq m c) _ _

def pdats : (p : Fin 3) → (c : Dev nD) → Dat τ (Elt F) Unit ℕ (UR sig nD τ) ℕ (cfgs p) c
  | ⟨0, _⟩ => fun c => dat0 (ent0 m) c
  | ⟨1, _⟩ => fun c => dat1 (ent1 m) c
  | ⟨2, _⟩ => fun c => dat2 (ent2 m) c

theorem plain (p : Fin 3) (c : Dev nD) : (∀ w, (pdats m p c).q w = fullShare) ∧ ∀ t, (pdats m p c).owed t = 0
    ∧ (pdats m p c).recorded t = Set.univ ∧ (pdats m p c).Φ t = Pipeline.ΦA (cfgs p).spec c :=
  match p with | ⟨0, _⟩ | ⟨1, _⟩ | ⟨2, _⟩ => ⟨fun _ => rfl, fun _ => ⟨rfl, rfl, rfl⟩⟩

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev E : Fin 4 → Dev nD → sProp 𝕄 := fun _ c => R c
abbrev T (V : Valuation τ sig (Elt F)) (c : Dev nD) : sProp 𝕄 := iprop(StableHlo.held (c : Thread nD τ) (Pipeline.ucRefs τ sig) V ∗ R c)

theorem T_congr {V V' : Valuation τ sig (Elt F)} (h : V = V') (c : Dev nD) : T V c ⊢ T V' c := by rw [h]

-- `W c` with window `o`'s array at its final contents.
abbrev exitV (p : Fin 3) (o : Fin (cfgs p).W) (W : Dev nD → Valuation τ sig (Elt F)) (c : Dev nD) : Valuation τ sig (Elt F) :=
  Function.update (W c) (Pipeline.arrRef (cfgs p).spec o) ((pdats m p c).arrAt o (cfgs p).N)

-- Across a region only its output window's array changes; every other buffer keeps its entry contents.
def reg (p : Fin 3) (lf : Pipeline.LaunchFacts (nD := nD) (τ := τ) cfgs p) (o : Fin (cfgs p).W)
    (ho : ∀ w, w ≠ o → ((cfgs p).win w).isOut = false) (W : Dev nD → Valuation τ sig (Elt F))
    (hb : ∀ c, BodyObligation (pdats m p c) (defs₀ (F := F)) 𝒱₀ () Set.univ)
    (hA : ∀ c w, (pdats m p c).A w = W c (Pipeline.arrRef (cfgs p).spec w)) :
    RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c t => ((plain m p c).2 t).1
  pre c := T (W c) c
  post c := T (exitV m p o W c) c
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hsplit := Pipeline.arrays_of_unscopedBufs (p := p) (pcfgs (F := F)) adm (pdats m) lf.win lf.arr_whole c
      ((pdats m p c).share_full (plain m p c).1) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [((plain m p c).2 0).1]
      icases HO with ⟨%W, HO⟩; iexists W; isplitr; · ipureintro; exact fun _ _ => Or.inl (((plain m p c).2 0).2.1 ▸ trivial)
      iexact HO
    isplitl [Hp] <;> iassumption
  hin c := by
    rw [((plain m p c).2 0).2.2]; unfold Pipeline.ΦA
    iintro ⟨Hp, -, Hr⟩
    isplitl [Hr] <;> iassumption
  hout c := by
    rw [Pipeline.ownSems0_none, ((plain m p c).2 (Fin.last _)).2.2]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (plain m p c).1)
      (fun b => W c b) (fun b => exitV m p o W c b) ((pdats m p c).arrAt · (cfgs p).N)
      (fun w => by
        show _ = exitV m p o W c (Pipeline.arrRef (cfgs p).spec w)
        by_cases h : w = o
        · subst h; simp only [exitV, Function.update_self]
        · rw [exitV, Function.update_of_ne (StableHlo.devRef_ne_of_ne fun e => h (lf.win.arr_inj e))]
          exact ((pdats m p c).arrAt_in w (ho w h) _).trans (hA c w))
      (fun b hb => Function.update_of_ne
        (StableHlo.devRef_ne_of_ne fun e => hb (Finset.mem_image.mpr ⟨o, Finset.mem_univ _, e.symm⟩)) _ _)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [((plain m p c).2 (Fin.last _)).1]
    icases HO with ⟨%W, -, HO⟩; iexists W; iexact HO

def reg0 := reg m 0 launch0 3 (by decide) (V1 m) (body_obligation0 (ent0 m)) (A_eq0 (ent0 m))
def reg1 := reg m 1 launch1 7 (by decide) (U9 m) (body_obligation1 (ent1 m)) (A_eq1 (ent1 m))
def reg2 := reg m 2 launch2 7 (by decide) (U17 m) (body_obligation2 (ent2 m)) (A_eq2 (ent2 m))

theorem run_all (ρ : Dev nD → PrngReg) : θ_run defs (onTc (τ := τ) (main (F := F))) ⟨m, fun _ => 0, ρ⟩ (fun r => ∀ c : Dev nD,
    ∀ b ∈ Pipeline.ucRefs τ sig, r.2.mem ((c : Thread nD τ).1, b) = V18 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m))
    (fun c Q => by rewrite [main_chain c, Seg.run_eq_chain]; exact .of_eq (by chain_rfl))
    (fun c => by simp only [segs, Seg.pipes_host, Seg.pipes_region, Seg.pipes_nil]; decide) 0 (fun _ _ => rfl) (fun _ => BI.emp)
    (initOf (Pipeline.cells cfgs cellOf_inj) (Pipeline.launchToks cfgs cellOf_inj)) ?_
    (T₀ := fun c => T (V0 m c) c)
    (Tₙ := fun c => StableHlo.held (c : Thread nD τ) (Pipeline.ucRefs τ sig) (V18 m (outs m) c))
    (hch := fun c => ⟨.rfl, .rfl, T_congr (V2_eq m c).symm c, .rfl, .rfl, .rfl, .rfl, .rfl, .rfl, T_congr (V9_eq m c) c,
      T_congr (V10_eq m c).symm c, .rfl, .rfl, .rfl, .rfl, .rfl, .rfl, T_congr (V17_eq m c) c,
      (T_congr (V18_eq m c).symm c).trans (sep_mono .rfl (by iintro ⟨-, H⟩; iexact H))⟩)
    (hinit := Pipeline.initEach L lv fun c => ?_)
    (QY := fun c s => ∀ b ∈ Pipeline.ucRefs τ sig, s.mem ((c : Thread nD τ).1, b) = V18 m (outs m) c b)
    (hfin := fun c s' => (pointsTo_read_all (Pipeline.ucRefs τ sig) (fun b => ((c : Thread nD τ).1, b)) (V18 m (outs m) c) s').trans fupd_intro)
    (hQ := fun _ h => h)
  · rw [ownU_emb₁, BI.bigSep_emp_const]
    iintro H; imodintro
    isplitl [H]; · iexact H
    iempintro
  · refine (sep_mono (sep_mono (Entails.of_eq (Pipeline.unscopedBufs_held c (V0 m c))) .rfl) .rfl).trans ?_
    iintro ⟨⟨Hb, -, HO, -, Hp, -⟩, -⟩
    imodintro
    isplitl [Hb]; · iexact Hb
    isplitl [Hp]; · iexists _; iexact Hp
    iexists ∅; iexact HO

theorem read_of (s : MemSt nD τ sig (Elt F)) (h : ∀ c : Dev nD, ∀ b ∈ Pipeline.ucRefs τ sig, s.mem ((c : Thread nD τ).1, b) = V18 m (outs m) c b)
    (c : Dev nD) (b : Ref sig .tc) (hb : ¬ (Proc.devRef .tc b : DevRef τ sig).isScoped) {x : Buf (Elt F) ((c : Thread nD τ).loc b)}
    (hx : V18 m (outs m) c b = x) : s.mem ((c.tc : Thread nD τ).loc b) = x :=
  (h c _ (Finset.mem_filter.mpr ⟨StableHlo.devRef_mem_tcRefs b, hb⟩)).trans hx

theorem run_result (ρ : Dev nD → PrngReg) : θ_run defs (onTc (τ := τ) (main (F := F))) ⟨m, fun _ => 0, ρ⟩ (fun r => ∀ c : Dev nD,
      r.2.mem ((c.tc : Thread nD τ).loc main_v125) = o18 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    have k := read_of m r.2 h c
    ⟨k _ (by decide) ((congrFun (V18_eq m c) _).trans (Function.update_self _ _ _)),
    k _ (by decide) (V18_main_arg0 m _ c),
    k _ (by decide) (V18_main_arg1 m _ c),
    k _ (by decide) (V18_main_arg2 m _ c),
    k _ (by decide) (V18_main_arg3 m _ c),
    k _ (by decide) (V18_main_arg4 m _ c),
    k _ (by decide) (V18_main_arg5 m _ c),
    k _ (by decide) (V18_main_arg6 m _ c),
    k _ (by decide) (V18_main_arg7 m _ c),
    k _ (by decide) (V18_main_arg8 m _ c),
    k _ (by decide) (V18_main_arg9 m _ c),
    k _ (by decide) (V18_main_arg10 m _ c),
    k _ (by decide) (V18_main_arg11 m _ c),
    k _ (by decide) (V18_main_arg12 m _ c),
    k _ (by decide) (V18_main_arg13 m _ c)⟩) (run_all m ρ)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => (h c).2) (run_result m ρ)

end Cert.KernelIdeal.RunH

end
-- ==== Proof.RefRun00.lean ====
import proofs.«429923_j72335839199437_1_alg».proof.Proof.RefRead
import Idealize.ShloMosaic.Lib.Pipeline.Regions
import Mathlib.Data.List.Basic

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem scopedRefs_eq : (Finset.univ.filter fun b : Ref sig .tc => b.isScoped) = ∅ := by decide
theorem scopedSems_eq : (Finset.univ.filter fun sm : SemLoc sig => sm.isScoped .tc) = ∅ := by decide

-- what the run asks of a line of operations whose results are the references `W`
structure Stretch (W : List (Ref sig .tc)) (l : List (HloOp τ sig (Elt F))) : Prop where
  sub : l.Forall fun op => op.bufs ⊆ tcRefs τ sig
  fresh : l.Forall fun op => op.fresh = ∅
  writes : l.Forall fun op => op.writes ⊆ (W.map (Proc.devRef (τ := τ) .tc)).toFinset

theorem writes_of_mem {W : List (Ref sig .tc)} {y : Ref sig .tc} {op : HloOp τ sig (Elt F)}
    (hw : op.writes = {Proc.devRef .tc y}) (h : y ∈ W) :
    op.writes ⊆ (W.map (Proc.devRef (τ := τ) .tc)).toFinset := by
  rw [hw, Finset.singleton_subset_iff, List.mem_toFinset]
  exact List.mem_map_of_mem h

namespace Stretch

variable {W W' : List (Ref sig .tc)} {l l' : List (HloOp τ sig (Elt F))}

theorem of (h : Stretch W l) (U : Valuation τ sig (Elt F)) {r : Ref sig .tc} (hr : r ∉ W) :
    after l U (Proc.devRef .tc r) = U (Proc.devRef .tc r) :=
  after_of_writes_sub l U h.writes hr

theorem nil : Stretch (F := F) [] [] := ⟨trivial, trivial, trivial⟩

theorem append (h : Stretch W l) (h' : Stretch W' l') : Stretch (W ++ W') (l ++ l') :=
  ⟨List.forall_append.mpr ⟨h.sub, h'.sub⟩, List.forall_append.mpr ⟨h.fresh, h'.fresh⟩,
    List.forall_append.mpr
      ⟨h.writes.imp fun _ hw _ hx =>
          List.mem_toFinset.mpr (List.map_subset _ (List.subset_append_left _ _) (List.mem_toFinset.mp (hw hx))),
        h'.writes.imp fun _ hw _ hx =>
          List.mem_toFinset.mpr (List.map_subset _ (List.subset_append_right _ _) (List.mem_toFinset.mp (hw hx)))⟩⟩

-- a line is built one operation at a time, each writing the next reference of `W`
theorem cons {y : Ref sig .tc} {op : HloOp τ sig (Elt F)} (hs : op.bufs ⊆ tcRefs τ sig) (hf : op.fresh = ∅)
    (hw : op.writes = {Proc.devRef .tc y}) (h : Stretch W l) : Stretch (y :: W) (op :: l) :=
  append (W := [y]) (l := [op]) ⟨hs, hf, writes_of_mem hw List.mem_cons_self⟩ h

end Stretch

abbrev args : List (Ref sig .tc) :=
  [main_arg0, main_arg1, main_arg2, main_arg3, main_arg4, main_arg5, main_arg6, main_arg7, main_arg8, main_arg9,
    main_arg10, main_arg11, main_arg12, main_arg13]

section

variable (m : (ℓ : Loc nD τ sig) → Buf (Elt F) ℓ) (c : Dev nD)

abbrev A (r : Ref sig .tc) := m ((c.tc : Thread nD τ).loc r)

-- `U` holds every argument at its launch contents
def AtLaunch (U : Valuation τ sig (Elt F)) : Prop := ∀ r ∈ args, U (Proc.devRef .tc r) = A m c r

theorem AtLaunch.step {m c} {W : List (Ref sig .tc)} {l : List (HloOp τ sig (Elt F))} {U : Valuation τ sig (Elt F)}
    (h : AtLaunch m c U) (hl : Stretch W l) (hW : ∀ r ∈ args, r ∉ W) : AtLaunch m c (after l U) :=
  fun r hr => (hl.of U (hW r hr)).trans (h r hr)

abbrev val45 := ReadP.val_main_v45 (F := F) (A m c main_arg0) (A m c main_arg1) (A m c main_arg4) (A m c main_arg5) (A m c main_arg6) (A m c main_arg7) (A m c main_arg8)
abbrev val55 := ReadP.val_main_v55 (F := F) (A m c main_arg0) (A m c main_arg1) (A m c main_arg4) (A m c main_arg5) (A m c main_arg6) (A m c main_arg7) (A m c main_arg8)
abbrev val101 := ReadP.val_main_v101 (F := F) (A m c main_arg0) (A m c main_arg1) (A m c main_arg4) (A m c main_arg5) (A m c main_arg6) (A m c main_arg7) (A m c main_arg8)
abbrev val110 := ReadP.val_main_v110 (F := F) (A m c main_arg0) (A m c main_arg1) (A m c main_arg4) (A m c main_arg5) (A m c main_arg6) (A m c main_arg7) (A m c main_arg8)
abbrev val156 := ReadP.val_main_v156 (F := F) (A m c main_arg0) (A m c main_arg1) (A m c main_arg4) (A m c main_arg5) (A m c main_arg6) (A m c main_arg7) (A m c main_arg8)
abbrev val165 := ReadP.val_main_v165 (F := F) (A m c main_arg0) (A m c main_arg1) (A m c main_arg4) (A m c main_arg5) (A m c main_arg6) (A m c main_arg7) (A m c main_arg8)
abbrev val196 := ReadP.val_main_v196 (F := F) (A m c main_arg0) (A m c main_arg1) (A m c main_arg4) (A m c main_arg5) (A m c main_arg6) (A m c main_arg7) (A m c main_arg8) (A m c main_arg12) (A m c main_arg13)
abbrev val234 := ReadP.val_main_v234 (F := F) (A m c main_arg0) (A m c main_arg1) (A m c main_arg4) (A m c main_arg5) (A m c main_arg6) (A m c main_arg7) (A m c main_arg8) (A m c main_arg9) (A m c main_arg10) (A m c main_arg11) (A m c main_arg12) (A m c main_arg13)
abbrev val271 := ReadP.val_main_v271 (F := F) (A m c main_arg0) (A m c main_arg1) (A m c main_arg4) (A m c main_arg5) (A m c main_arg6) (A m c main_arg7) (A m c main_arg8) (A m c main_arg9) (A m c main_arg10) (A m c main_arg11) (A m c main_arg12) (A m c main_arg13)
abbrev val308 := ReadP.val_main_v308 (F := F) (A m c main_arg0) (A m c main_arg1) (A m c main_arg4) (A m c main_arg5) (A m c main_arg6) (A m c main_arg7) (A m c main_arg8) (A m c main_arg9) (A m c main_arg10) (A m c main_arg11) (A m c main_arg12) (A m c main_arg13)
abbrev val339 := ReadP.val_main_v339 (F := F) (A m c main_arg0) (A m c main_arg1) (A m c main_arg4) (A m c main_arg5) (A m c main_arg6) (A m c main_arg7) (A m c main_arg8) (A m c main_arg9) (A m c main_arg10) (A m c main_arg11) (A m c main_arg12) (A m c main_arg13)

end

end Cert.ReferenceIdeal.RunH

end
-- ==== Proof.RefRun01.lean ====
import proofs.«429923_j72335839199437_1_alg».proof.Proof.RefRun00

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

def c1 : List (HloOp τ sig (Elt F)) :=
  [ unary main_arg1 main_v0 (extractStridedSlice S1x1x600000 ![0, 0, 0] · slices_S3x2x600000_S1x1x600000_0_0_0),
    reshape main_v0 main_v1 rfl shapeCasts_S1x1x600000_S600000,
    unary main_arg1 main_v2 (extractStridedSlice S1x1x600000 ![0, 1, 0] · slices_S3x2x600000_S1x1x600000_0_1_0),
    reshape main_v2 main_v3 rfl shapeCasts_S1x1x600000_S600000,
    unary main_arg6 main_v4 (extractStridedSlice S1x128x128 ![0, 0, 0] · slices_S3x128x128_S1x128x128_0_0_0),
    reshape main_v4 main_v5 rfl shapeCasts_S1x128x128_S128x128,
    unary main_arg7 main_v6 (extractStridedSlice S1x128 ![0, 0] · slices_S3x128_S1x128_0_0),
    reshape main_v6 main_v7 rfl shapeCasts_S1x128_S128,
    unary main_arg8 main_v8 (extractStridedSlice S1x128x128 ![0, 0, 0] · slices_S3x128x128_S1x128x128_0_0_0),
    reshape main_v8 main_v9 rfl shapeCasts_S1x128x128_S128x128,
    unary main_arg4 main_v10 (extractStridedSlice S1x128x128 ![0, 0, 0] · slices_S3x128x128_S1x128x128_0_0_0),
    reshape main_v10 main_v11 rfl shapeCasts_S1x128x128_S128x128,
    unary main_arg5 main_v12 (extractStridedSlice S1x128 ![0, 0] · slices_S3x128_S1x128_0_0),
    reshape main_v12 main_v13 rfl shapeCasts_S1x128_S128,
    unary main_v11 main_v14 (transpose S128x128 [1, 0] · transposes_S128x128_S128x128_1_0),
    binary main_arg0 main_v14 main_v15 (fun l r => Host.dotGeneral dot_S100000x128_S128x128_S100000x128_1_0_0_1_n_n none l r),
    unary main_v13 main_v16 (broadcastInDim S1x128 ![1] bcast_S128_S1x128_1),
    unary main_v16 main_v17 (broadcastInDim S100000x128 ![0, 1] bcast_S1x128_S100000x128_0_1),
    binary main_v15 main_v17 main_v18 addf,
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v18) (TRef.of (T := ⟨S100000x128, .f32⟩) main_call0_v0) (TRef.of (T := ⟨S100000x128, .f32⟩) main_v19) maximumf,
    nullary main_c (constantI S_ 32 0#32),
    unary main_c main_v20 (broadcastInDim S600000 ![] bcast_S_S600000),
    binary main_v1 main_v20 main_v21 (cmpi .slt),
    nullary main_c_0 (constantI S_ 32 100000#32),
    unary main_c_0 main_v22 (broadcastInDim S600000 ![] bcast_S_S600000),
    binary main_v1 main_v22 main_v23 addi,
    ternary main_v21 main_v23 main_v1 main_v24 select,
    unary main_v24 main_v25 (broadcastInDim S600000x1 ![0] bcast_S600000_S600000x1_0),
    binary main_v19 main_v25 main_v26 (fun x i => Host.gather gather_S100000x128_S600000x1_S600000x128_1_0_n_n_0_1_1128 x i),
    nullary main_cst (constant S_ .f32 0x00000000#32),
    unary main_cst main_v27 (broadcastInDim S100000x128 ![] bcast_S_S100000x128),
    unary main_v3 main_v28 (broadcastInDim S600000x1 ![0] bcast_S600000_S600000x1_0),
    ternary main_v27 main_v28 main_v26 main_v29 (fun x i u => Host.scatterAdd scatter_S100000x128_S600000x1_S600000x128_1_0_0_1 x i u),
    nullary main_cst_1 (constant S_ .f32 0x3F800000#32),
    unary main_cst_1 main_v30 (broadcastInDim S600000x1 ![] bcast_S_S600000x1),
    nullary main_cst_2 (constant S_ .f32 0x00000000#32),
    unary main_cst_2 main_v31 (broadcastInDim S100000x1 ![] bcast_S_S100000x1),
    unary main_v3 main_v32 (broadcastInDim S600000x1 ![0] bcast_S600000_S600000x1_0),
    ternary main_v31 main_v32 main_v30 main_v33 (fun x i u => Host.scatterAdd scatter_S100000x1_S600000x1_S600000x1_1_0_0_1 x i u),
    nullary main_cst_3 (constant S_ .f32 0x3F800000#32),
    unary main_cst_3 main_v34 (broadcastInDim S100000x1 ![] bcast_S_S100000x1),
    binary main_v33 main_v34 main_v35 maximumf,
    unary main_v35 main_v36 (broadcastInDim S100000x128 ![0, 1] bcast_S100000x1_S100000x128_0_1),
    binary main_v29 main_v36 main_v37 Host.divf,
    unary main_v5 main_v38 (transpose S128x128 [1, 0] · transposes_S128x128_S128x128_1_0),
    binary main_v37 main_v38 main_v39 (fun l r => Host.dotGeneral dot_S100000x128_S128x128_S100000x128_1_0_0_1_n_n none l r),
    unary main_v7 main_v40 (broadcastInDim S1x128 ![1] bcast_S128_S1x128_1),
    unary main_v40 main_v41 (broadcastInDim S100000x128 ![0, 1] bcast_S1x128_S100000x128_0_1),
    binary main_v39 main_v41 main_v42 addf,
    unary main_v9 main_v43 (transpose S128x128 [1, 0] · transposes_S128x128_S128x128_1_0),
    binary main_arg0 main_v43 main_v44 (fun l r => Host.dotGeneral dot_S100000x128_S128x128_S100000x128_1_0_0_1_n_n none l r),
    binary main_v42 main_v44 main_v45 addf ]

abbrev W1 : List (Ref sig .tc) := [main_v0, main_v1, main_v2, main_v3, main_v4, main_v5, main_v6, main_v7, main_v8, main_v9, main_v10, main_v11, main_v12, main_v13, main_v14, main_v15, main_v16, main_v17, main_v18, main_call0_cst, main_call0_v0, main_v19, main_c, main_v20, main_v21, main_c_0, main_v22, main_v23, main_v24, main_v25, main_v26, main_cst, main_v27, main_v28, main_v29, main_cst_1, main_v30, main_cst_2, main_v31, main_v32, main_v33, main_cst_3, main_v34, main_v35, main_v36, main_v37, main_v38, main_v39, main_v40, main_v41, main_v42, main_v43, main_v44, main_v45]

theorem c1_ok : Stretch W1 (c1 (F := F)) := by
  unfold c1
  repeat first | exact .nil | refine .cons (by simp only [nullary_bufs_sub, unary_bufs_sub, binary_bufs_sub, ternary_bufs_sub, reshape_bufs_sub]) rfl rfl ?_

theorem c1_main_v45 {m : (ℓ : Loc nD τ sig) → Buf (Elt F) ℓ} {c : Dev nD} {U : Valuation τ sig (Elt F)}
    (h : AtLaunch m c U) :
    after c1 U (Proc.devRef .tc main_v45) = val45 m c := by
  unfold c1
  after_results_simp
  rw [h main_arg1 (by decide), h main_arg6 (by decide), h main_arg7 (by decide), h main_arg8 (by decide), h main_arg4 (by decide), h main_arg5 (by decide), h main_arg0 (by decide)]
  chain_rfl

end Cert.ReferenceIdeal.RunH

end
-- ==== Proof.RefRun02.lean ====
import proofs.«429923_j72335839199437_1_alg».proof.Proof.RefRun00

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

def c2 : List (HloOp τ sig (Elt F)) :=
  [ binary main_v45 main_v45 main_v46 mulf,
    nullary main_cst_4 (constant S_ .f32 0x00000000#32),
    binary main_v46 main_cst_4 main_v47 (fun x v => Host.reduceAdd x v reducesTo_S100000x128_S100000_d1 h_S_),
    unary main_v47 main_v48 (broadcastInDim S100000x1 ![0] bcast_S100000_S100000x1_0),
    unary main_v48 main_v49 Host.sqrt,
    nullary main_cst_5 (constant S_ .f32 0x2B8CBCCC#32),
    unary main_cst_5 main_v50 (broadcastInDim S100000x1 ![] bcast_S_S100000x1),
    binary main_v49 main_v50 main_v51 maximumf,
    unary main_v51 main_v52 (broadcastInDim S100000x128 ![0, 1] bcast_S100000x1_S100000x128_0_1),
    binary main_v45 main_v52 main_v53 Host.divf,
    nullary main_cst_6 (constant S_ .f32 0x00000000#32),
    unary main_cst_6 main_v54 (broadcastInDim S100000x128 ![] bcast_S_S100000x128),
    binary main_v54 main_v53 main_v55 addf ]

abbrev W2 : List (Ref sig .tc) := [main_v46, main_cst_4, main_v47, main_v48, main_v49, main_cst_5, main_v50, main_v51, main_v52, main_v53, main_cst_6, main_v54, main_v55]

theorem c2_ok : Stretch W2 (c2 (F := F)) := by
  unfold c2
  repeat first | exact .nil | refine .cons (by simp only [nullary_bufs_sub, unary_bufs_sub, binary_bufs_sub, ternary_bufs_sub, reshape_bufs_sub]) rfl rfl ?_

theorem c2_main_v55 {m : (ℓ : Loc nD τ sig) → Buf (Elt F) ℓ} {c : Dev nD} {U : Valuation τ sig (Elt F)}
    (h45 : U (Proc.devRef .tc main_v45) = val45 m c) :
    after c2 U (Proc.devRef .tc main_v55) = val55 m c := by
  unfold c2
  after_results_simp
  rw [h45]
  chain_rfl

end Cert.ReferenceIdeal.RunH

end
-- ==== Proof.RefRun03.lean ====
import proofs.«429923_j72335839199437_1_alg».proof.Proof.RefRun00

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

def c3 : List (HloOp τ sig (Elt F)) :=
  [ unary main_arg1 main_v56 (extractStridedSlice S1x1x600000 ![1, 0, 0] · slices_S3x2x600000_S1x1x600000_1_0_0),
    reshape main_v56 main_v57 rfl shapeCasts_S1x1x600000_S600000,
    unary main_arg1 main_v58 (extractStridedSlice S1x1x600000 ![1, 1, 0] · slices_S3x2x600000_S1x1x600000_1_1_0),
    reshape main_v58 main_v59 rfl shapeCasts_S1x1x600000_S600000,
    unary main_arg6 main_v60 (extractStridedSlice S1x128x128 ![1, 0, 0] · slices_S3x128x128_S1x128x128_1_0_0),
    reshape main_v60 main_v61 rfl shapeCasts_S1x128x128_S128x128,
    unary main_arg7 main_v62 (extractStridedSlice S1x128 ![1, 0] · slices_S3x128_S1x128_1_0),
    reshape main_v62 main_v63 rfl shapeCasts_S1x128_S128,
    unary main_arg8 main_v64 (extractStridedSlice S1x128x128 ![1, 0, 0] · slices_S3x128x128_S1x128x128_1_0_0),
    reshape main_v64 main_v65 rfl shapeCasts_S1x128x128_S128x128,
    unary main_arg4 main_v66 (extractStridedSlice S1x128x128 ![1, 0, 0] · slices_S3x128x128_S1x128x128_1_0_0),
    reshape main_v66 main_v67 rfl shapeCasts_S1x128x128_S128x128,
    unary main_arg5 main_v68 (extractStridedSlice S1x128 ![1, 0] · slices_S3x128_S1x128_1_0),
    reshape main_v68 main_v69 rfl shapeCasts_S1x128_S128,
    unary main_v67 main_v70 (transpose S128x128 [1, 0] · transposes_S128x128_S128x128_1_0),
    binary main_arg0 main_v70 main_v71 (fun l r => Host.dotGeneral dot_S100000x128_S128x128_S100000x128_1_0_0_1_n_n none l r),
    unary main_v69 main_v72 (broadcastInDim S1x128 ![1] bcast_S128_S1x128_1),
    unary main_v72 main_v73 (broadcastInDim S100000x128 ![0, 1] bcast_S1x128_S100000x128_0_1),
    binary main_v71 main_v73 main_v74 addf,
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v74) (TRef.of (T := ⟨S100000x128, .f32⟩) main_call1_v0) (TRef.of (T := ⟨S100000x128, .f32⟩) main_v75) maximumf,
    nullary main_c_7 (constantI S_ 32 0#32),
    unary main_c_7 main_v76 (broadcastInDim S600000 ![] bcast_S_S600000),
    binary main_v57 main_v76 main_v77 (cmpi .slt),
    nullary main_c_8 (constantI S_ 32 100000#32),
    unary main_c_8 main_v78 (broadcastInDim S600000 ![] bcast_S_S600000),
    binary main_v57 main_v78 main_v79 addi,
    ternary main_v77 main_v79 main_v57 main_v80 select,
    unary main_v80 main_v81 (broadcastInDim S600000x1 ![0] bcast_S600000_S600000x1_0),
    binary main_v75 main_v81 main_v82 (fun x i => Host.gather gather_S100000x128_S600000x1_S600000x128_1_0_n_n_0_1_1128 x i),
    nullary main_cst_9 (constant S_ .f32 0x00000000#32),
    unary main_cst_9 main_v83 (broadcastInDim S100000x128 ![] bcast_S_S100000x128),
    unary main_v59 main_v84 (broadcastInDim S600000x1 ![0] bcast_S600000_S600000x1_0),
    ternary main_v83 main_v84 main_v82 main_v85 (fun x i u => Host.scatterAdd scatter_S100000x128_S600000x1_S600000x128_1_0_0_1 x i u),
    nullary main_cst_10 (constant S_ .f32 0x3F800000#32),
    unary main_cst_10 main_v86 (broadcastInDim S600000x1 ![] bcast_S_S600000x1),
    nullary main_cst_11 (constant S_ .f32 0x00000000#32),
    unary main_cst_11 main_v87 (broadcastInDim S100000x1 ![] bcast_S_S100000x1),
    unary main_v59 main_v88 (broadcastInDim S600000x1 ![0] bcast_S600000_S600000x1_0),
    ternary main_v87 main_v88 main_v86 main_v89 (fun x i u => Host.scatterAdd scatter_S100000x1_S600000x1_S600000x1_1_0_0_1 x i u),
    nullary main_cst_12 (constant S_ .f32 0x3F800000#32),
    unary main_cst_12 main_v90 (broadcastInDim S100000x1 ![] bcast_S_S100000x1),
    binary main_v89 main_v90 main_v91 maximumf,
    unary main_v91 main_v92 (broadcastInDim S100000x128 ![0, 1] bcast_S100000x1_S100000x128_0_1),
    binary main_v85 main_v92 main_v93 Host.divf,
    unary main_v61 main_v94 (transpose S128x128 [1, 0] · transposes_S128x128_S128x128_1_0),
    binary main_v93 main_v94 main_v95 (fun l r => Host.dotGeneral dot_S100000x128_S128x128_S100000x128_1_0_0_1_n_n none l r),
    unary main_v63 main_v96 (broadcastInDim S1x128 ![1] bcast_S128_S1x128_1),
    unary main_v96 main_v97 (broadcastInDim S100000x128 ![0, 1] bcast_S1x128_S100000x128_0_1),
    binary main_v95 main_v97 main_v98 addf,
    unary main_v65 main_v99 (transpose S128x128 [1, 0] · transposes_S128x128_S128x128_1_0),
    binary main_arg0 main_v99 main_v100 (fun l r => Host.dotGeneral dot_S100000x128_S128x128_S100000x128_1_0_0_1_n_n none l r),
    binary main_v98 main_v100 main_v101 addf ]

abbrev W3 : List (Ref sig .tc) := [main_v56, main_v57, main_v58, main_v59, main_v60, main_v61, main_v62, main_v63, main_v64, main_v65, main_v66, main_v67, main_v68, main_v69, main_v70, main_v71, main_v72, main_v73, main_v74, main_call1_cst, main_call1_v0, main_v75, main_c_7, main_v76, main_v77, main_c_8, main_v78, main_v79, main_v80, main_v81, main_v82, main_cst_9, main_v83, main_v84, main_v85, main_cst_10, main_v86, main_cst_11, main_v87, main_v88, main_v89, main_cst_12, main_v90, main_v91, main_v92, main_v93, main_v94, main_v95, main_v96, main_v97, main_v98, main_v99, main_v100, main_v101]

theorem c3_ok : Stretch W3 (c3 (F := F)) := by
  unfold c3
  repeat first | exact .nil | refine .cons (by simp only [nullary_bufs_sub, unary_bufs_sub, binary_bufs_sub, ternary_bufs_sub, reshape_bufs_sub]) rfl rfl ?_

theorem c3_main_v101 {m : (ℓ : Loc nD τ sig) → Buf (Elt F) ℓ} {c : Dev nD} {U : Valuation τ sig (Elt F)}
    (h : AtLaunch m c U) :
    after c3 U (Proc.devRef .tc main_v101) = val101 m c := by
  unfold c3
  after_results_simp
  rw [h main_arg1 (by decide), h main_arg6 (by decide), h main_arg7 (by decide), h main_arg8 (by decide), h main_arg4 (by decide), h main_arg5 (by decide), h main_arg0 (by decide)]
  chain_rfl

end Cert.ReferenceIdeal.RunH

end
-- ==== Proof.RefRun04.lean ====
import proofs.«429923_j72335839199437_1_alg».proof.Proof.RefRun00

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

def c4 : List (HloOp τ sig (Elt F)) :=
  [ binary main_v101 main_v101 main_v102 mulf,
    nullary main_cst_13 (constant S_ .f32 0x00000000#32),
    binary main_v102 main_cst_13 main_v103 (fun x v => Host.reduceAdd x v reducesTo_S100000x128_S100000_d1 h_S_),
    unary main_v103 main_v104 (broadcastInDim S100000x1 ![0] bcast_S100000_S100000x1_0),
    unary main_v104 main_v105 Host.sqrt,
    nullary main_cst_14 (constant S_ .f32 0x2B8CBCCC#32),
    unary main_cst_14 main_v106 (broadcastInDim S100000x1 ![] bcast_S_S100000x1),
    binary main_v105 main_v106 main_v107 maximumf,
    unary main_v107 main_v108 (broadcastInDim S100000x128 ![0, 1] bcast_S100000x1_S100000x128_0_1),
    binary main_v101 main_v108 main_v109 Host.divf,
    binary main_v55 main_v109 main_v110 addf ]

abbrev W4 : List (Ref sig .tc) := [main_v102, main_cst_13, main_v103, main_v104, main_v105, main_cst_14, main_v106, main_v107, main_v108, main_v109, main_v110]

theorem c4_ok : Stretch W4 (c4 (F := F)) := by
  unfold c4
  repeat first | exact .nil | refine .cons (by simp only [nullary_bufs_sub, unary_bufs_sub, binary_bufs_sub, ternary_bufs_sub, reshape_bufs_sub]) rfl rfl ?_

theorem c4_main_v110 {m : (ℓ : Loc nD τ sig) → Buf (Elt F) ℓ} {c : Dev nD} {U : Valuation τ sig (Elt F)}
    (h101 : U (Proc.devRef .tc main_v101) = val101 m c) (h55 : U (Proc.devRef .tc main_v55) = val55 m c) :
    after c4 U (Proc.devRef .tc main_v110) = val110 m c := by
  unfold c4
  after_results_simp
  rw [h101, h55]
  chain_rfl

end Cert.ReferenceIdeal.RunH

end
-- ==== Proof.RefRun05.lean ====
import proofs.«429923_j72335839199437_1_alg».proof.Proof.RefRun00

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

def c5 : List (HloOp τ sig (Elt F)) :=
  [ unary main_arg1 main_v111 (extractStridedSlice S1x1x600000 ![2, 0, 0] · slices_S3x2x600000_S1x1x600000_2_0_0),
    reshape main_v111 main_v112 rfl shapeCasts_S1x1x600000_S600000,
    unary main_arg1 main_v113 (extractStridedSlice S1x1x600000 ![2, 1, 0] · slices_S3x2x600000_S1x1x600000_2_1_0),
    reshape main_v113 main_v114 rfl shapeCasts_S1x1x600000_S600000,
    unary main_arg6 main_v115 (extractStridedSlice S1x128x128 ![2, 0, 0] · slices_S3x128x128_S1x128x128_2_0_0),
    reshape main_v115 main_v116 rfl shapeCasts_S1x128x128_S128x128,
    unary main_arg7 main_v117 (extractStridedSlice S1x128 ![2, 0] · slices_S3x128_S1x128_2_0),
    reshape main_v117 main_v118 rfl shapeCasts_S1x128_S128,
    unary main_arg8 main_v119 (extractStridedSlice S1x128x128 ![2, 0, 0] · slices_S3x128x128_S1x128x128_2_0_0),
    reshape main_v119 main_v120 rfl shapeCasts_S1x128x128_S128x128,
    unary main_arg4 main_v121 (extractStridedSlice S1x128x128 ![2, 0, 0] · slices_S3x128x128_S1x128x128_2_0_0),
    reshape main_v121 main_v122 rfl shapeCasts_S1x128x128_S128x128,
    unary main_arg5 main_v123 (extractStridedSlice S1x128 ![2, 0] · slices_S3x128_S1x128_2_0),
    reshape main_v123 main_v124 rfl shapeCasts_S1x128_S128,
    unary main_v122 main_v125 (transpose S128x128 [1, 0] · transposes_S128x128_S128x128_1_0),
    binary main_arg0 main_v125 main_v126 (fun l r => Host.dotGeneral dot_S100000x128_S128x128_S100000x128_1_0_0_1_n_n none l r),
    unary main_v124 main_v127 (broadcastInDim S1x128 ![1] bcast_S128_S1x128_1),
    unary main_v127 main_v128 (broadcastInDim S100000x128 ![0, 1] bcast_S1x128_S100000x128_0_1),
    binary main_v126 main_v128 main_v129 addf,
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v129) (TRef.of (T := ⟨S100000x128, .f32⟩) main_call2_v0) (TRef.of (T := ⟨S100000x128, .f32⟩) main_v130) maximumf,
    nullary main_c_15 (constantI S_ 32 0#32),
    unary main_c_15 main_v131 (broadcastInDim S600000 ![] bcast_S_S600000),
    binary main_v112 main_v131 main_v132 (cmpi .slt),
    nullary main_c_16 (constantI S_ 32 100000#32),
    unary main_c_16 main_v133 (broadcastInDim S600000 ![] bcast_S_S600000),
    binary main_v112 main_v133 main_v134 addi,
    ternary main_v132 main_v134 main_v112 main_v135 select,
    unary main_v135 main_v136 (broadcastInDim S600000x1 ![0] bcast_S600000_S600000x1_0),
    binary main_v130 main_v136 main_v137 (fun x i => Host.gather gather_S100000x128_S600000x1_S600000x128_1_0_n_n_0_1_1128 x i),
    nullary main_cst_17 (constant S_ .f32 0x00000000#32),
    unary main_cst_17 main_v138 (broadcastInDim S100000x128 ![] bcast_S_S100000x128),
    unary main_v114 main_v139 (broadcastInDim S600000x1 ![0] bcast_S600000_S600000x1_0),
    ternary main_v138 main_v139 main_v137 main_v140 (fun x i u => Host.scatterAdd scatter_S100000x128_S600000x1_S600000x128_1_0_0_1 x i u),
    nullary main_cst_18 (constant S_ .f32 0x3F800000#32),
    unary main_cst_18 main_v141 (broadcastInDim S600000x1 ![] bcast_S_S600000x1),
    nullary main_cst_19 (constant S_ .f32 0x00000000#32),
    unary main_cst_19 main_v142 (broadcastInDim S100000x1 ![] bcast_S_S100000x1),
    unary main_v114 main_v143 (broadcastInDim S600000x1 ![0] bcast_S600000_S600000x1_0),
    ternary main_v142 main_v143 main_v141 main_v144 (fun x i u => Host.scatterAdd scatter_S100000x1_S600000x1_S600000x1_1_0_0_1 x i u),
    nullary main_cst_20 (constant S_ .f32 0x3F800000#32),
    unary main_cst_20 main_v145 (broadcastInDim S100000x1 ![] bcast_S_S100000x1),
    binary main_v144 main_v145 main_v146 maximumf,
    unary main_v146 main_v147 (broadcastInDim S100000x128 ![0, 1] bcast_S100000x1_S100000x128_0_1),
    binary main_v140 main_v147 main_v148 Host.divf,
    unary main_v116 main_v149 (transpose S128x128 [1, 0] · transposes_S128x128_S128x128_1_0),
    binary main_v148 main_v149 main_v150 (fun l r => Host.dotGeneral dot_S100000x128_S128x128_S100000x128_1_0_0_1_n_n none l r),
    unary main_v118 main_v151 (broadcastInDim S1x128 ![1] bcast_S128_S1x128_1),
    unary main_v151 main_v152 (broadcastInDim S100000x128 ![0, 1] bcast_S1x128_S100000x128_0_1),
    binary main_v150 main_v152 main_v153 addf,
    unary main_v120 main_v154 (transpose S128x128 [1, 0] · transposes_S128x128_S128x128_1_0),
    binary main_arg0 main_v154 main_v155 (fun l r => Host.dotGeneral dot_S100000x128_S128x128_S100000x128_1_0_0_1_n_n none l r),
    binary main_v153 main_v155 main_v156 addf ]

abbrev W5 : List (Ref sig .tc) := [main_v111, main_v112, main_v113, main_v114, main_v115, main_v116, main_v117, main_v118, main_v119, main_v120, main_v121, main_v122, main_v123, main_v124, main_v125, main_v126, main_v127, main_v128, main_v129, main_call2_cst, main_call2_v0, main_v130, main_c_15, main_v131, main_v132, main_c_16, main_v133, main_v134, main_v135, main_v136, main_v137, main_cst_17, main_v138, main_v139, main_v140, main_cst_18, main_v141, main_cst_19, main_v142, main_v143, main_v144, main_cst_20, main_v145, main_v146, main_v147, main_v148, main_v149, main_v150, main_v151, main_v152, main_v153, main_v154, main_v155, main_v156]

theorem c5_ok : Stretch W5 (c5 (F := F)) := by
  unfold c5
  repeat first | exact .nil | refine .cons (by simp only [nullary_bufs_sub, unary_bufs_sub, binary_bufs_sub, ternary_bufs_sub, reshape_bufs_sub]) rfl rfl ?_

theorem c5_main_v156 {m : (ℓ : Loc nD τ sig) → Buf (Elt F) ℓ} {c : Dev nD} {U : Valuation τ sig (Elt F)}
    (h : AtLaunch m c U) :
    after c5 U (Proc.devRef .tc main_v156) = val156 m c := by
  unfold c5
  after_results_simp
  rw [h main_arg1 (by decide), h main_arg6 (by decide), h main_arg7 (by decide), h main_arg8 (by decide), h main_arg4 (by decide), h main_arg5 (by decide), h main_arg0 (by decide)]
  chain_rfl

end Cert.ReferenceIdeal.RunH

end
-- ==== Proof.RefRun06.lean ====
import proofs.«429923_j72335839199437_1_alg».proof.Proof.RefRun00

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

def c6 : List (HloOp τ sig (Elt F)) :=
  [ binary main_v156 main_v156 main_v157 mulf,
    nullary main_cst_21 (constant S_ .f32 0x00000000#32),
    binary main_v157 main_cst_21 main_v158 (fun x v => Host.reduceAdd x v reducesTo_S100000x128_S100000_d1 h_S_),
    unary main_v158 main_v159 (broadcastInDim S100000x1 ![0] bcast_S100000_S100000x1_0),
    unary main_v159 main_v160 Host.sqrt,
    nullary main_cst_22 (constant S_ .f32 0x2B8CBCCC#32),
    unary main_cst_22 main_v161 (broadcastInDim S100000x1 ![] bcast_S_S100000x1),
    binary main_v160 main_v161 main_v162 maximumf,
    unary main_v162 main_v163 (broadcastInDim S100000x128 ![0, 1] bcast_S100000x1_S100000x128_0_1),
    binary main_v156 main_v163 main_v164 Host.divf,
    binary main_v110 main_v164 main_v165 addf ]

abbrev W6 : List (Ref sig .tc) := [main_v157, main_cst_21, main_v158, main_v159, main_v160, main_cst_22, main_v161, main_v162, main_v163, main_v164, main_v165]

theorem c6_ok : Stretch W6 (c6 (F := F)) := by
  unfold c6
  repeat first | exact .nil | refine .cons (by simp only [nullary_bufs_sub, unary_bufs_sub, binary_bufs_sub, ternary_bufs_sub, reshape_bufs_sub]) rfl rfl ?_

theorem c6_main_v165 {m : (ℓ : Loc nD τ sig) → Buf (Elt F) ℓ} {c : Dev nD} {U : Valuation τ sig (Elt F)}
    (h156 : U (Proc.devRef .tc main_v156) = val156 m c) (h110 : U (Proc.devRef .tc main_v110) = val110 m c) :
    after c6 U (Proc.devRef .tc main_v165) = val165 m c := by
  unfold c6
  after_results_simp
  rw [h156, h110]
  chain_rfl

end Cert.ReferenceIdeal.RunH

end
-- ==== Proof.RefRun07.lean ====
import proofs.«429923_j72335839199437_1_alg».proof.Proof.RefRun00

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

def c7 : List (HloOp τ sig (Elt F)) :=
  [ nullary main_cst_23 (constant S_ .f32 0x40400000#32),
    unary main_cst_23 main_v166 (broadcastInDim S100000x128 ![] bcast_S_S100000x128),
    binary main_v165 main_v166 main_v167 Host.divf,
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v167) (TRef.of (T := ⟨S100000x128, .f32⟩) main_call3_v0) (TRef.of (T := ⟨S100000x128, .f32⟩) main_v168) maximumf,
    unary main_arg12 main_v169 (extractStridedSlice S1x128 ![0, 0] · slices_S2x128_S1x128_0_0),
    reshape main_v169 main_v170 rfl shapeCasts_S1x128_S128,
    unary main_arg13 main_v171 (extractStridedSlice S1x128 ![0, 0] · slices_S2x128_S1x128_0_0),
    reshape main_v171 main_v172 rfl shapeCasts_S1x128_S128,
    nullary main_cst_24 (constant S_ .f32 0x00000000#32),
    binary main_v168 main_cst_24 main_v173 (fun x v => Host.reduceAdd x v reducesTo_S100000x128_S100000_d1 h_S_),
    unary main_v173 main_v174 (broadcastInDim S100000x1 ![0] bcast_S100000_S100000x1_0),
    nullary main_cst_25 (constant S_ .f32 0x43000000#32),
    unary main_cst_25 main_v175 (broadcastInDim S100000x1 ![] bcast_S_S100000x1),
    binary main_v174 main_v175 main_v176 Host.divf,
    unary main_v176 main_v177 (broadcastInDim S100000x128 ![0, 1] bcast_S100000x1_S100000x128_0_1),
    binary main_v168 main_v177 main_v178 subf,
    binary main_v178 main_v178 main_v179 mulf,
    nullary main_cst_26 (constant S_ .f32 0x00000000#32),
    binary main_v179 main_cst_26 main_v180 (fun x v => Host.reduceAdd x v reducesTo_S100000x128_S100000_d1 h_S_),
    unary main_v180 main_v181 (broadcastInDim S100000x1 ![0] bcast_S100000_S100000x1_0),
    nullary main_cst_27 (constant S_ .f32 0x43000000#32),
    unary main_cst_27 main_v182 (broadcastInDim S100000x1 ![] bcast_S_S100000x1),
    binary main_v181 main_v182 main_v183 Host.divf,
    unary main_v176 main_v184 (broadcastInDim S100000x128 ![0, 1] bcast_S100000x1_S100000x128_0_1),
    binary main_v168 main_v184 main_v185 subf,
    nullary main_cst_28 (constant S_ .f32 0x3727C5AC#32),
    unary main_cst_28 main_v186 (broadcastInDim S100000x1 ![] bcast_S_S100000x1),
    binary main_v183 main_v186 main_v187 addf,
    unary main_v187 main_v188 Host.rsqrt,
    unary main_v188 main_v189 (broadcastInDim S100000x128 ![0, 1] bcast_S100000x1_S100000x128_0_1),
    binary main_v185 main_v189 main_v190 mulf,
    unary main_v170 main_v191 (broadcastInDim S1x128 ![1] bcast_S128_S1x128_1),
    unary main_v191 main_v192 (broadcastInDim S100000x128 ![0, 1] bcast_S1x128_S100000x128_0_1),
    binary main_v190 main_v192 main_v193 mulf,
    unary main_v172 main_v194 (broadcastInDim S1x128 ![1] bcast_S128_S1x128_1),
    unary main_v194 main_v195 (broadcastInDim S100000x128 ![0, 1] bcast_S1x128_S100000x128_0_1),
    binary main_v193 main_v195 main_v196 addf ]

abbrev W7 : List (Ref sig .tc) := [main_cst_23, main_v166, main_v167, main_call3_cst, main_call3_v0, main_v168, main_v169, main_v170, main_v171, main_v172, main_cst_24, main_v173, main_v174, main_cst_25, main_v175, main_v176, main_v177, main_v178, main_v179, main_cst_26, main_v180, main_v181, main_cst_27, main_v182, main_v183, main_v184, main_v185, main_cst_28, main_v186, main_v187, main_v188, main_v189, main_v190, main_v191, main_v192, main_v193, main_v194, main_v195, main_v196]

theorem c7_ok : Stretch W7 (c7 (F := F)) := by
  unfold c7
  repeat first | exact .nil | refine .cons (by simp only [nullary_bufs_sub, unary_bufs_sub, binary_bufs_sub, ternary_bufs_sub, reshape_bufs_sub]) rfl rfl ?_

theorem c7_main_v196 {m : (ℓ : Loc nD τ sig) → Buf (Elt F) ℓ} {c : Dev nD} {U : Valuation τ sig (Elt F)}
    (h : AtLaunch m c U) (h165 : U (Proc.devRef .tc main_v165) = val165 m c) :
    after c7 U (Proc.devRef .tc main_v196) = val196 m c := by
  unfold c7
  after_results_simp
  rw [h165, h main_arg12 (by decide), h main_arg13 (by decide)]
  chain_rfl

end Cert.ReferenceIdeal.RunH

end
-- ==== Proof.RefRun08.lean ====
import proofs.«429923_j72335839199437_1_alg».proof.Proof.RefRun00

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

def c8 : List (HloOp τ sig (Elt F)) :=
  [ unary main_arg1 main_v197 (extractStridedSlice S1x1x600000 ![0, 0, 0] · slices_S3x2x600000_S1x1x600000_0_0_0),
    reshape main_v197 main_v198 rfl shapeCasts_S1x1x600000_S600000,
    unary main_arg1 main_v199 (extractStridedSlice S1x1x600000 ![0, 1, 0] · slices_S3x2x600000_S1x1x600000_0_1_0),
    reshape main_v199 main_v200 rfl shapeCasts_S1x1x600000_S600000,
    unary main_arg9 main_v201 (extractStridedSlice S1x128x128 ![0, 0, 0] · slices_S3x128x128_S1x128x128_0_0_0),
    reshape main_v201 main_v202 rfl shapeCasts_S1x128x128_S128x128,
    unary main_arg10 main_v203 (extractStridedSlice S1x128 ![0, 0] · slices_S3x128_S1x128_0_0),
    reshape main_v203 main_v204 rfl shapeCasts_S1x128_S128,
    unary main_arg11 main_v205 (extractStridedSlice S1x128x128 ![0, 0, 0] · slices_S3x128x128_S1x128x128_0_0_0),
    reshape main_v205 main_v206 rfl shapeCasts_S1x128x128_S128x128,
    nullary main_c_29 (constantI S_ 32 0#32),
    unary main_c_29 main_v207 (broadcastInDim S600000 ![] bcast_S_S600000),
    binary main_v198 main_v207 main_v208 (cmpi .slt),
    nullary main_c_30 (constantI S_ 32 100000#32),
    unary main_c_30 main_v209 (broadcastInDim S600000 ![] bcast_S_S600000),
    binary main_v198 main_v209 main_v210 addi,
    ternary main_v208 main_v210 main_v198 main_v211 select,
    unary main_v211 main_v212 (broadcastInDim S600000x1 ![0] bcast_S600000_S600000x1_0),
    binary main_v196 main_v212 main_v213 (fun x i => Host.gather gather_S100000x128_S600000x1_S600000x128_1_0_n_n_0_1_1128 x i),
    nullary main_cst_31 (constant S_ .f32 0x00000000#32),
    unary main_cst_31 main_v214 (broadcastInDim S100000x128 ![] bcast_S_S100000x128),
    unary main_v200 main_v215 (broadcastInDim S600000x1 ![0] bcast_S600000_S600000x1_0),
    ternary main_v214 main_v215 main_v213 main_v216 (fun x i u => Host.scatterAdd scatter_S100000x128_S600000x1_S600000x128_1_0_0_1 x i u),
    nullary main_cst_32 (constant S_ .f32 0x3F800000#32),
    unary main_cst_32 main_v217 (broadcastInDim S600000x1 ![] bcast_S_S600000x1),
    nullary main_cst_33 (constant S_ .f32 0x00000000#32),
    unary main_cst_33 main_v218 (broadcastInDim S100000x1 ![] bcast_S_S100000x1),
    unary main_v200 main_v219 (broadcastInDim S600000x1 ![0] bcast_S600000_S600000x1_0),
    ternary main_v218 main_v219 main_v217 main_v220 (fun x i u => Host.scatterAdd scatter_S100000x1_S600000x1_S600000x1_1_0_0_1 x i u),
    nullary main_cst_34 (constant S_ .f32 0x3F800000#32),
    unary main_cst_34 main_v221 (broadcastInDim S100000x1 ![] bcast_S_S100000x1),
    binary main_v220 main_v221 main_v222 maximumf,
    unary main_v222 main_v223 (broadcastInDim S100000x128 ![0, 1] bcast_S100000x1_S100000x128_0_1),
    binary main_v216 main_v223 main_v224 Host.divf,
    unary main_v202 main_v225 (transpose S128x128 [1, 0] · transposes_S128x128_S128x128_1_0),
    binary main_v224 main_v225 main_v226 (fun l r => Host.dotGeneral dot_S100000x128_S128x128_S100000x128_1_0_0_1_n_n none l r),
    unary main_v204 main_v227 (broadcastInDim S1x128 ![1] bcast_S128_S1x128_1),
    unary main_v227 main_v228 (broadcastInDim S100000x128 ![0, 1] bcast_S1x128_S100000x128_0_1),
    binary main_v226 main_v228 main_v229 addf,
    unary main_v206 main_v230 (transpose S128x128 [1, 0] · transposes_S128x128_S128x128_1_0),
    binary main_v196 main_v230 main_v231 (fun l r => Host.dotGeneral dot_S100000x128_S128x128_S100000x128_1_0_0_1_n_n none l r),
    binary main_v229 main_v231 main_v232 addf,
    nullary main_cst_35 (constant S_ .f32 0x00000000#32),
    unary main_cst_35 main_v233 (broadcastInDim S100000x128 ![] bcast_S_S100000x128),
    binary main_v233 main_v232 main_v234 addf ]

abbrev W8 : List (Ref sig .tc) := [main_v197, main_v198, main_v199, main_v200, main_v201, main_v202, main_v203, main_v204, main_v205, main_v206, main_c_29, main_v207, main_v208, main_c_30, main_v209, main_v210, main_v211, main_v212, main_v213, main_cst_31, main_v214, main_v215, main_v216, main_cst_32, main_v217, main_cst_33, main_v218, main_v219, main_v220, main_cst_34, main_v221, main_v222, main_v223, main_v224, main_v225, main_v226, main_v227, main_v228, main_v229, main_v230, main_v231, main_v232, main_cst_35, main_v233, main_v234]

theorem c8_ok : Stretch W8 (c8 (F := F)) := by
  unfold c8
  repeat first | exact .nil | refine .cons (by simp only [nullary_bufs_sub, unary_bufs_sub, binary_bufs_sub, ternary_bufs_sub, reshape_bufs_sub]) rfl rfl ?_

theorem c8_main_v234 {m : (ℓ : Loc nD τ sig) → Buf (Elt F) ℓ} {c : Dev nD} {U : Valuation τ sig (Elt F)}
    (h : AtLaunch m c U) (h196 : U (Proc.devRef .tc main_v196) = val196 m c) :
    after c8 U (Proc.devRef .tc main_v234) = val234 m c := by
  unfold c8
  after_results_simp
  rw [h main_arg1 (by decide), h main_arg9 (by decide), h main_arg10 (by decide), h main_arg11 (by decide), h196]
  chain_rfl

end Cert.ReferenceIdeal.RunH

end
-- ==== Proof.RefRun09.lean ====
import proofs.«429923_j72335839199437_1_alg».proof.Proof.RefRun00

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

def c9 : List (HloOp τ sig (Elt F)) :=
  [ unary main_arg1 main_v235 (extractStridedSlice S1x1x600000 ![1, 0, 0] · slices_S3x2x600000_S1x1x600000_1_0_0),
    reshape main_v235 main_v236 rfl shapeCasts_S1x1x600000_S600000,
    unary main_arg1 main_v237 (extractStridedSlice S1x1x600000 ![1, 1, 0] · slices_S3x2x600000_S1x1x600000_1_1_0),
    reshape main_v237 main_v238 rfl shapeCasts_S1x1x600000_S600000,
    unary main_arg9 main_v239 (extractStridedSlice S1x128x128 ![1, 0, 0] · slices_S3x128x128_S1x128x128_1_0_0),
    reshape main_v239 main_v240 rfl shapeCasts_S1x128x128_S128x128,
    unary main_arg10 main_v241 (extractStridedSlice S1x128 ![1, 0] · slices_S3x128_S1x128_1_0),
    reshape main_v241 main_v242 rfl shapeCasts_S1x128_S128,
    unary main_arg11 main_v243 (extractStridedSlice S1x128x128 ![1, 0, 0] · slices_S3x128x128_S1x128x128_1_0_0),
    reshape main_v243 main_v244 rfl shapeCasts_S1x128x128_S128x128,
    nullary main_c_36 (constantI S_ 32 0#32),
    unary main_c_36 main_v245 (broadcastInDim S600000 ![] bcast_S_S600000),
    binary main_v236 main_v245 main_v246 (cmpi .slt),
    nullary main_c_37 (constantI S_ 32 100000#32),
    unary main_c_37 main_v247 (broadcastInDim S600000 ![] bcast_S_S600000),
    binary main_v236 main_v247 main_v248 addi,
    ternary main_v246 main_v248 main_v236 main_v249 select,
    unary main_v249 main_v250 (broadcastInDim S600000x1 ![0] bcast_S600000_S600000x1_0),
    binary main_v196 main_v250 main_v251 (fun x i => Host.gather gather_S100000x128_S600000x1_S600000x128_1_0_n_n_0_1_1128 x i),
    nullary main_cst_38 (constant S_ .f32 0x00000000#32),
    unary main_cst_38 main_v252 (broadcastInDim S100000x128 ![] bcast_S_S100000x128),
    unary main_v238 main_v253 (broadcastInDim S600000x1 ![0] bcast_S600000_S600000x1_0),
    ternary main_v252 main_v253 main_v251 main_v254 (fun x i u => Host.scatterAdd scatter_S100000x128_S600000x1_S600000x128_1_0_0_1 x i u),
    nullary main_cst_39 (constant S_ .f32 0x3F800000#32),
    unary main_cst_39 main_v255 (broadcastInDim S600000x1 ![] bcast_S_S600000x1),
    nullary main_cst_40 (constant S_ .f32 0x00000000#32),
    unary main_cst_40 main_v256 (broadcastInDim S100000x1 ![] bcast_S_S100000x1),
    unary main_v238 main_v257 (broadcastInDim S600000x1 ![0] bcast_S600000_S600000x1_0),
    ternary main_v256 main_v257 main_v255 main_v258 (fun x i u => Host.scatterAdd scatter_S100000x1_S600000x1_S600000x1_1_0_0_1 x i u),
    nullary main_cst_41 (constant S_ .f32 0x3F800000#32),
    unary main_cst_41 main_v259 (broadcastInDim S100000x1 ![] bcast_S_S100000x1),
    binary main_v258 main_v259 main_v260 maximumf,
    unary main_v260 main_v261 (broadcastInDim S100000x128 ![0, 1] bcast_S100000x1_S100000x128_0_1),
    binary main_v254 main_v261 main_v262 Host.divf,
    unary main_v240 main_v263 (transpose S128x128 [1, 0] · transposes_S128x128_S128x128_1_0),
    binary main_v262 main_v263 main_v264 (fun l r => Host.dotGeneral dot_S100000x128_S128x128_S100000x128_1_0_0_1_n_n none l r),
    unary main_v242 main_v265 (broadcastInDim S1x128 ![1] bcast_S128_S1x128_1),
    unary main_v265 main_v266 (broadcastInDim S100000x128 ![0, 1] bcast_S1x128_S100000x128_0_1),
    binary main_v264 main_v266 main_v267 addf,
    unary main_v244 main_v268 (transpose S128x128 [1, 0] · transposes_S128x128_S128x128_1_0),
    binary main_v196 main_v268 main_v269 (fun l r => Host.dotGeneral dot_S100000x128_S128x128_S100000x128_1_0_0_1_n_n none l r),
    binary main_v267 main_v269 main_v270 addf,
    binary main_v234 main_v270 main_v271 addf ]

abbrev W9 : List (Ref sig .tc) := [main_v235, main_v236, main_v237, main_v238, main_v239, main_v240, main_v241, main_v242, main_v243, main_v244, main_c_36, main_v245, main_v246, main_c_37, main_v247, main_v248, main_v249, main_v250, main_v251, main_cst_38, main_v252, main_v253, main_v254, main_cst_39, main_v255, main_cst_40, main_v256, main_v257, main_v258, main_cst_41, main_v259, main_v260, main_v261, main_v262, main_v263, main_v264, main_v265, main_v266, main_v267, main_v268, main_v269, main_v270, main_v271]

theorem c9_ok : Stretch W9 (c9 (F := F)) := by
  unfold c9
  repeat first | exact .nil | refine .cons (by simp only [nullary_bufs_sub, unary_bufs_sub, binary_bufs_sub, ternary_bufs_sub, reshape_bufs_sub]) rfl rfl ?_

theorem c9_main_v271 {m : (ℓ : Loc nD τ sig) → Buf (Elt F) ℓ} {c : Dev nD} {U : Valuation τ sig (Elt F)}
    (h : AtLaunch m c U) (h196 : U (Proc.devRef .tc main_v196) = val196 m c) (h234 : U (Proc.devRef .tc main_v234) = val234 m c) :
    after c9 U (Proc.devRef .tc main_v271) = val271 m c := by
  unfold c9
  after_results_simp
  rw [h main_arg1 (by decide), h main_arg9 (by decide), h main_arg10 (by decide), h main_arg11 (by decide), h196, h234]
  chain_rfl

end Cert.ReferenceIdeal.RunH

end
-- ==== Proof.RefRun10.lean ====
import proofs.«429923_j72335839199437_1_alg».proof.Proof.RefRun00

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

def c10 : List (HloOp τ sig (Elt F)) :=
  [ unary main_arg1 main_v272 (extractStridedSlice S1x1x600000 ![2, 0, 0] · slices_S3x2x600000_S1x1x600000_2_0_0),
    reshape main_v272 main_v273 rfl shapeCasts_S1x1x600000_S600000,
    unary main_arg1 main_v274 (extractStridedSlice S1x1x600000 ![2, 1, 0] · slices_S3x2x600000_S1x1x600000_2_1_0),
    reshape main_v274 main_v275 rfl shapeCasts_S1x1x600000_S600000,
    unary main_arg9 main_v276 (extractStridedSlice S1x128x128 ![2, 0, 0] · slices_S3x128x128_S1x128x128_2_0_0),
    reshape main_v276 main_v277 rfl shapeCasts_S1x128x128_S128x128,
    unary main_arg10 main_v278 (extractStridedSlice S1x128 ![2, 0] · slices_S3x128_S1x128_2_0),
    reshape main_v278 main_v279 rfl shapeCasts_S1x128_S128,
    unary main_arg11 main_v280 (extractStridedSlice S1x128x128 ![2, 0, 0] · slices_S3x128x128_S1x128x128_2_0_0),
    reshape main_v280 main_v281 rfl shapeCasts_S1x128x128_S128x128,
    nullary main_c_42 (constantI S_ 32 0#32),
    unary main_c_42 main_v282 (broadcastInDim S600000 ![] bcast_S_S600000),
    binary main_v273 main_v282 main_v283 (cmpi .slt),
    nullary main_c_43 (constantI S_ 32 100000#32),
    unary main_c_43 main_v284 (broadcastInDim S600000 ![] bcast_S_S600000),
    binary main_v273 main_v284 main_v285 addi,
    ternary main_v283 main_v285 main_v273 main_v286 select,
    unary main_v286 main_v287 (broadcastInDim S600000x1 ![0] bcast_S600000_S600000x1_0),
    binary main_v196 main_v287 main_v288 (fun x i => Host.gather gather_S100000x128_S600000x1_S600000x128_1_0_n_n_0_1_1128 x i),
    nullary main_cst_44 (constant S_ .f32 0x00000000#32),
    unary main_cst_44 main_v289 (broadcastInDim S100000x128 ![] bcast_S_S100000x128),
    unary main_v275 main_v290 (broadcastInDim S600000x1 ![0] bcast_S600000_S600000x1_0),
    ternary main_v289 main_v290 main_v288 main_v291 (fun x i u => Host.scatterAdd scatter_S100000x128_S600000x1_S600000x128_1_0_0_1 x i u),
    nullary main_cst_45 (constant S_ .f32 0x3F800000#32),
    unary main_cst_45 main_v292 (broadcastInDim S600000x1 ![] bcast_S_S600000x1),
    nullary main_cst_46 (constant S_ .f32 0x00000000#32),
    unary main_cst_46 main_v293 (broadcastInDim S100000x1 ![] bcast_S_S100000x1),
    unary main_v275 main_v294 (broadcastInDim S600000x1 ![0] bcast_S600000_S600000x1_0),
    ternary main_v293 main_v294 main_v292 main_v295 (fun x i u => Host.scatterAdd scatter_S100000x1_S600000x1_S600000x1_1_0_0_1 x i u),
    nullary main_cst_47 (constant S_ .f32 0x3F800000#32),
    unary main_cst_47 main_v296 (broadcastInDim S100000x1 ![] bcast_S_S100000x1),
    binary main_v295 main_v296 main_v297 maximumf,
    unary main_v297 main_v298 (broadcastInDim S100000x128 ![0, 1] bcast_S100000x1_S100000x128_0_1),
    binary main_v291 main_v298 main_v299 Host.divf,
    unary main_v277 main_v300 (transpose S128x128 [1, 0] · transposes_S128x128_S128x128_1_0),
    binary main_v299 main_v300 main_v301 (fun l r => Host.dotGeneral dot_S100000x128_S128x128_S100000x128_1_0_0_1_n_n none l r),
    unary main_v279 main_v302 (broadcastInDim S1x128 ![1] bcast_S128_S1x128_1),
    unary main_v302 main_v303 (broadcastInDim S100000x128 ![0, 1] bcast_S1x128_S100000x128_0_1),
    binary main_v301 main_v303 main_v304 addf,
    unary main_v281 main_v305 (transpose S128x128 [1, 0] · transposes_S128x128_S128x128_1_0),
    binary main_v196 main_v305 main_v306 (fun l r => Host.dotGeneral dot_S100000x128_S128x128_S100000x128_1_0_0_1_n_n none l r),
    binary main_v304 main_v306 main_v307 addf,
    binary main_v271 main_v307 main_v308 addf ]

abbrev W10 : List (Ref sig .tc) := [main_v272, main_v273, main_v274, main_v275, main_v276, main_v277, main_v278, main_v279, main_v280, main_v281, main_c_42, main_v282, main_v283, main_c_43, main_v284, main_v285, main_v286, main_v287, main_v288, main_cst_44, main_v289, main_v290, main_v291, main_cst_45, main_v292, main_cst_46, main_v293, main_v294, main_v295, main_cst_47, main_v296, main_v297, main_v298, main_v299, main_v300, main_v301, main_v302, main_v303, main_v304, main_v305, main_v306, main_v307, main_v308]

theorem c10_ok : Stretch W10 (c10 (F := F)) := by
  unfold c10
  repeat first | exact .nil | refine .cons (by simp only [nullary_bufs_sub, unary_bufs_sub, binary_bufs_sub, ternary_bufs_sub, reshape_bufs_sub]) rfl rfl ?_

theorem c10_main_v308 {m : (ℓ : Loc nD τ sig) → Buf (Elt F) ℓ} {c : Dev nD} {U : Valuation τ sig (Elt F)}
    (h : AtLaunch m c U) (h196 : U (Proc.devRef .tc main_v196) = val196 m c) (h271 : U (Proc.devRef .tc main_v271) = val271 m c) :
    after c10 U (Proc.devRef .tc main_v308) = val308 m c := by
  unfold c10
  after_results_simp
  rw [h main_arg1 (by decide), h main_arg9 (by decide), h main_arg10 (by decide), h main_arg11 (by decide), h196, h271]
  chain_rfl

end Cert.ReferenceIdeal.RunH

end
-- ==== Proof.RefRun11.lean ====
import proofs.«429923_j72335839199437_1_alg».proof.Proof.RefRun00

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

def c11 : List (HloOp τ sig (Elt F)) :=
  [ nullary main_cst_48 (constant S_ .f32 0x40400000#32),
    unary main_cst_48 main_v309 (broadcastInDim S100000x128 ![] bcast_S_S100000x128),
    binary main_v308 main_v309 main_v310 Host.divf,
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v310) (TRef.of (T := ⟨S100000x128, .f32⟩) main_call4_v0) (TRef.of (T := ⟨S100000x128, .f32⟩) main_v311) maximumf,
    unary main_arg12 main_v312 (extractStridedSlice S1x128 ![1, 0] · slices_S2x128_S1x128_1_0),
    reshape main_v312 main_v313 rfl shapeCasts_S1x128_S128,
    unary main_arg13 main_v314 (extractStridedSlice S1x128 ![1, 0] · slices_S2x128_S1x128_1_0),
    reshape main_v314 main_v315 rfl shapeCasts_S1x128_S128,
    nullary main_cst_49 (constant S_ .f32 0x00000000#32),
    binary main_v311 main_cst_49 main_v316 (fun x v => Host.reduceAdd x v reducesTo_S100000x128_S100000_d1 h_S_),
    unary main_v316 main_v317 (broadcastInDim S100000x1 ![0] bcast_S100000_S100000x1_0),
    nullary main_cst_50 (constant S_ .f32 0x43000000#32),
    unary main_cst_50 main_v318 (broadcastInDim S100000x1 ![] bcast_S_S100000x1),
    binary main_v317 main_v318 main_v319 Host.divf,
    unary main_v319 main_v320 (broadcastInDim S100000x128 ![0, 1] bcast_S100000x1_S100000x128_0_1),
    binary main_v311 main_v320 main_v321 subf,
    binary main_v321 main_v321 main_v322 mulf,
    nullary main_cst_51 (constant S_ .f32 0x00000000#32),
    binary main_v322 main_cst_51 main_v323 (fun x v => Host.reduceAdd x v reducesTo_S100000x128_S100000_d1 h_S_),
    unary main_v323 main_v324 (broadcastInDim S100000x1 ![0] bcast_S100000_S100000x1_0),
    nullary main_cst_52 (constant S_ .f32 0x43000000#32),
    unary main_cst_52 main_v325 (broadcastInDim S100000x1 ![] bcast_S_S100000x1),
    binary main_v324 main_v325 main_v326 Host.divf,
    unary main_v319 main_v327 (broadcastInDim S100000x128 ![0, 1] bcast_S100000x1_S100000x128_0_1),
    binary main_v311 main_v327 main_v328 subf,
    nullary main_cst_53 (constant S_ .f32 0x3727C5AC#32),
    unary main_cst_53 main_v329 (broadcastInDim S100000x1 ![] bcast_S_S100000x1),
    binary main_v326 main_v329 main_v330 addf,
    unary main_v330 main_v331 Host.rsqrt,
    unary main_v331 main_v332 (broadcastInDim S100000x128 ![0, 1] bcast_S100000x1_S100000x128_0_1),
    binary main_v328 main_v332 main_v333 mulf,
    unary main_v313 main_v334 (broadcastInDim S1x128 ![1] bcast_S128_S1x128_1),
    unary main_v334 main_v335 (broadcastInDim S100000x128 ![0, 1] bcast_S1x128_S100000x128_0_1),
    binary main_v333 main_v335 main_v336 mulf,
    unary main_v315 main_v337 (broadcastInDim S1x128 ![1] bcast_S128_S1x128_1),
    unary main_v337 main_v338 (broadcastInDim S100000x128 ![0, 1] bcast_S1x128_S100000x128_0_1),
    binary main_v336 main_v338 main_v339 addf ]

abbrev W11 : List (Ref sig .tc) := [main_cst_48, main_v309, main_v310, main_call4_cst, main_call4_v0, main_v311, main_v312, main_v313, main_v314, main_v315, main_cst_49, main_v316, main_v317, main_cst_50, main_v318, main_v319, main_v320, main_v321, main_v322, main_cst_51, main_v323, main_v324, main_cst_52, main_v325, main_v326, main_v327, main_v328, main_cst_53, main_v329, main_v330, main_v331, main_v332, main_v333, main_v334, main_v335, main_v336, main_v337, main_v338, main_v339]

theorem c11_ok : Stretch W11 (c11 (F := F)) := by
  unfold c11
  repeat first | exact .nil | refine .cons (by simp only [nullary_bufs_sub, unary_bufs_sub, binary_bufs_sub, ternary_bufs_sub, reshape_bufs_sub]) rfl rfl ?_

theorem c11_main_v339 {m : (ℓ : Loc nD τ sig) → Buf (Elt F) ℓ} {c : Dev nD} {U : Valuation τ sig (Elt F)}
    (h : AtLaunch m c U) (h308 : U (Proc.devRef .tc main_v308) = val308 m c) :
    after c11 U (Proc.devRef .tc main_v339) = val339 m c := by
  unfold c11
  after_results_simp
  rw [h308, h main_arg12 (by decide), h main_arg13 (by decide)]
  chain_rfl

end Cert.ReferenceIdeal.RunH

end
-- ==== Proof.RefRun.lean ====
import proofs.«429923_j72335839199437_1_alg».proof.Proof.RefRun01
import proofs.«429923_j72335839199437_1_alg».proof.Proof.RefRun02
import proofs.«429923_j72335839199437_1_alg».proof.Proof.RefRun03
import proofs.«429923_j72335839199437_1_alg».proof.Proof.RefRun04
import proofs.«429923_j72335839199437_1_alg».proof.Proof.RefRun05
import proofs.«429923_j72335839199437_1_alg».proof.Proof.RefRun06
import proofs.«429923_j72335839199437_1_alg».proof.Proof.RefRun07
import proofs.«429923_j72335839199437_1_alg».proof.Proof.RefRun08
import proofs.«429923_j72335839199437_1_alg».proof.Proof.RefRun09
import proofs.«429923_j72335839199437_1_alg».proof.Proof.RefRun10
import proofs.«429923_j72335839199437_1_alg».proof.Proof.RefRun11

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  c1 ++ (c2 ++ (c3 ++ (c4 ++ (c5 ++ (c6 ++ (c7 ++ (c8 ++ (c9 ++ (c10 ++ c11)))))))))

theorem main_eq (c : Dev nD) : main (F := F) c = seq ops := by
  chain_rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v339) = ReadP.val_main_v339 (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  have ko := (c1_ok (F := F)).append (c2_ok.append (c3_ok.append (c4_ok.append (c5_ok.append (c6_ok.append (c7_ok.append (c8_ok.append
    (c9_ok.append (c10_ok.append c11_ok)))))))))
  refine (θ_run defs _ _).mono (fun _ h c => ?_)
    (run_seq scopedRefs_eq scopedSems_eq defs main (fun _ => ops) main_eq (fun _ => ko.sub) m ρ
      (fun _ => List.forall_iff_forall_mem.mp ko.fresh))
  have a0 : AtLaunch m c (launchContents m c) := fun _ _ => rfl
  have a1 := a0.step c1_ok (by decide)
  have a2 := a1.step c2_ok (by decide)
  have a3 := a2.step c3_ok (by decide)
  have a4 := a3.step c4_ok (by decide)
  have a5 := a4.step c5_ok (by decide)
  have a6 := a5.step c6_ok (by decide)
  have a7 := a6.step c7_ok (by decide)
  have a8 := a7.step c8_ok (by decide)
  have a9 := a8.step c9_ok (by decide)
  have a10 := a9.step c10_ok (by decide)
  have a11 := a10.step c11_ok (by decide)
  have s2 := c2_main_v55 (c1_main_v45 a0)
  have s4 := c4_main_v110 (c3_main_v101 a2) ((c3_ok.of _ (by decide)).trans s2)
  have s6 := c6_main_v165 (c5_main_v156 a4) ((c5_ok.of _ (by decide)).trans s4)
  have s7 := c7_main_v196 a6 s6
  have t8 := (c8_ok.of _ (by decide)).trans s7
  have s9 := c9_main_v271 a8 t8 (c8_main_v234 a7 s7)
  have s10 := c10_main_v308 a9 ((c9_ok.of _ (by decide)).trans t8) s9
  have h := h c
  simp only [ops, after_append] at h
  refine ⟨(h _).trans (c11_main_v339 a10 s10), ?_⟩
  and_intros <;> exact (h _).trans (a11 _ (by decide))

end Cert.ReferenceIdeal.RunH

end
-- ==== Proof.Spec.lean ====
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

-- A node table of 100000 rows by 128 features; three square weight matrices; three bias rows; two normalisation rows.
abbrev Rows : Shape := ⟨2, ![100000, 128]⟩
abbrev Wts : Shape := ⟨3, ![3, 128, 128]⟩
abbrev Bias : Shape := ⟨2, ![3, 128]⟩
abbrev Norms : Shape := ⟨2, ![2, 128]⟩

abbrev Tab : Type := Rows.Idx → EReal

-- Row `n`, column `d` of `a · W[e]ᵀ`.
def lin (a : Tab) (W : Wts.Idx → EReal) (e : Fin 3) (n : Fin 100000) (d : Fin 128) : EReal :=
  ∑ k : Fin 128, a (ix2 n k) * W (ix3 e d k)

def proj (x : Tab) (W : Wts.Idx → EReal) (b : Bias.Idx → EReal) (e : Fin 3) : Tab :=
  fun i => max (lin x W e (i 0) (i 1) + b (ix2 e (i 1))) 0

-- One convolution before any normalisation: `agg · Wl[e]ᵀ + bl[e] + x · Wr[e]ᵀ`.
def sage (agg x : Tab) (Wl : Wts.Idx → EReal) (bl : Bias.Idx → EReal) (Wr : Wts.Idx → EReal) (e : Fin 3)
    (n : Fin 100000) (d : Fin 128) : EReal :=
  lin agg Wl e n d + bl (ix2 e d) + lin x Wr e n d

-- The constants 1e-12, 1e-5, 3 and 128 as single-precision words.
def epsNorm : EReal := Ideal.ofBits .f32 0x2B8CBCCC#32
def epsLn : EReal := Ideal.ofBits .f32 0x3727C5AC#32
def three : EReal := Ideal.ofBits .f32 0x40400000#32
def width : EReal := Ideal.ofBits .f32 0x43000000#32

-- A row over its Euclidean norm, the norm no less than `epsNorm`.
def unit (o : Fin 128 → EReal) (d : Fin 128) : EReal :=
  Ideal.div (o d) (max (Ideal.sqrt (∑ j : Fin 128, o j * o j)) epsNorm)

def mean (h : Fin 128 → EReal) : EReal := Ideal.div (∑ j : Fin 128, h j) width

-- A row centred and divided by the root of its variance plus `epsLn`, then scaled by `g` and shifted by `be`.
def layerNorm (h g be : Fin 128 → EReal) (d : Fin 128) : EReal :=
  (h d - mean h) * Ideal.rsqrt (mean (fun j => (h j - mean h) * (h j - mean h)) + epsLn) * g d + be d

-- The three edge types' unit rows averaged and clamped below by zero; `mix1` is the same without the unit step.
def mix0 (a : Fin 3 → Tab) (x : Tab) (Wl : Wts.Idx → EReal) (bl : Bias.Idx → EReal) (Wr : Wts.Idx → EReal)
    (n : Fin 100000) (d : Fin 128) : EReal :=
  max (Ideal.div (unit (sage (a 0) x Wl bl Wr 0 n) d + unit (sage (a 1) x Wl bl Wr 1 n) d
    + unit (sage (a 2) x Wl bl Wr 2 n) d) three) 0

def mix1 (a : Fin 3 → Tab) (x : Tab) (Wl : Wts.Idx → EReal) (bl : Bias.Idx → EReal) (Wr : Wts.Idx → EReal)
    (n : Fin 100000) (d : Fin 128) : EReal :=
  max (Ideal.div (sage (a 0) x Wl bl Wr 0 n d + sage (a 1) x Wl bl Wr 1 n d
    + sage (a 2) x Wl bl Wr 2 n d) three) 0

def ln0 (a : Fin 3 → Tab) (x : Tab) (Wl : Wts.Idx → EReal) (bl : Bias.Idx → EReal) (Wr : Wts.Idx → EReal)
    (g be : Fin 128 → EReal) : Tab :=
  fun i => layerNorm (mix0 a x Wl bl Wr (i 0)) g be (i 1)

def ln1 (a : Fin 3 → Tab) (x : Tab) (Wl : Wts.Idx → EReal) (bl : Bias.Idx → EReal) (Wr : Wts.Idx → EReal)
    (g be : Fin 128 → EReal) : Tab :=
  fun i => layerNorm (mix1 a x Wl bl Wr (i 0)) g be (i 1)

def layer0 (a : Fin 3 → Tab) (x : Tab) (Wl : Wts.Idx → EReal) (bl : Bias.Idx → EReal) (Wr : Wts.Idx → EReal)
    (g be : Norms.Idx → EReal) : Tab :=
  ln0 a x Wl bl Wr (fun j => g (ix2 0 j)) (fun j => be (ix2 0 j))

def layer1 (a : Fin 3 → Tab) (x : Tab) (Wl : Wts.Idx → EReal) (bl : Bias.Idx → EReal) (Wr : Wts.Idx → EReal)
    (g be : Norms.Idx → EReal) : Tab :=
  ln1 a x Wl bl Wr (fun j => g (ix2 1 j)) (fun j => be (ix2 1 j))

-- The first layer over the aggregated projections, and the second over the aggregated hidden features.
def hidden (ag : Fin 3 → Tab → Tab) (x : Tab) (Wp : Wts.Idx → EReal) (bp : Bias.Idx → EReal)
    (Wl0 : Wts.Idx → EReal) (bl0 : Bias.Idx → EReal) (Wr0 : Wts.Idx → EReal) (g be : Norms.Idx → EReal) : Tab :=
  layer0 (fun e => ag e (proj x Wp bp e)) x Wl0 bl0 Wr0 g be

def result (ag : Fin 3 → Tab → Tab) (x : Tab) (Wp : Wts.Idx → EReal) (bp : Bias.Idx → EReal)
    (Wl0 : Wts.Idx → EReal) (bl0 : Bias.Idx → EReal) (Wr0 : Wts.Idx → EReal)
    (Wl1 : Wts.Idx → EReal) (bl1 : Bias.Idx → EReal) (Wr1 : Wts.Idx → EReal) (g be : Norms.Idx → EReal) : Tab :=
  layer1 (fun e => ag e (hidden ag x Wp bp Wl0 bl0 Wr0 g be)) (hidden ag x Wp bp Wl0 bl0 Wr0 g be) Wl1 bl1 Wr1 g be

end Cert.Spec

end
-- ==== Proof.KIValueLib.lean ====
import proofs.«429923_j72335839199437_1_alg».proof.Proof.Gen.KernelIdeal
import proofs.«429923_j72335839199437_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Idealize.ShloMosaic Idealize.ShloMosaic.ValueIdx Idealize.ShloMosaic.TcCoe Idealize.SL.Sem Cert.KernelIdeal Cert.KernelIdeal.Gen

theorem hz1 : (![0] : Fin 1 → Nat) = fun _ => 0 := funext fun a => by fin_cases a; rfl
theorem hz2 : (![0, 0] : Fin 2 → Nat) = fun _ => 0 := funext fun a => by fin_cases a <;> rfl

theorem lhs_mm_0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem rhs_mm_1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

-- the one contracted axis is re-indexed by its coordinate; the other two axes are the output's row and column
theorem mm_apply (A : FVec Ideal S2000x128 .bf16) (B : FVec Ideal S128x128 .bf16) (r : Fin 2000) (d : Fin 128) :
    matmul dot_S2000x128_S128x128_S2000x128_1_0_0_1_n_n none A B (constant (F := Ideal) S2000x128 .f32 0x00000000#32) (ix2 r d) = ∑ k : Fin 128, A (ix2 r k) * B (ix2 k d) := by
  refine (Ideal.matmul_constant_zero_apply dot_S2000x128_S128x128_S2000x128_1_0_0_1_n_n none A B (ix2 r d)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r d) ((contrEquiv1 dot_S2000x128_S128x128_S2000x128_1_0_0_1_n_n 128 rfl rfl).symm k) = ix2 r k := funext fun a => Fin.ext (by
    match a with
    | ⟨0, _⟩ => exact lhs_mm_0 _ _
    | ⟨1, _⟩ => exact (dot_S2000x128_S128x128_S2000x128_1_0_0_1_n_n.lhsIdx_val_of_single rfl _ _).trans hk)
  have er : dot_S2000x128_S128x128_S2000x128_1_0_0_1_n_n.rhsIdx (ix2 r d) ((contrEquiv1 dot_S2000x128_S128x128_S2000x128_1_0_0_1_n_n 128 rfl rfl).symm k) = ix2 k d := funext fun a => Fin.ext (by
    match a with
    | ⟨0, _⟩ => exact (dot_S2000x128_S128x128_S2000x128_1_0_0_1_n_n.rhsIdx_val_of_single rfl _ _).trans hk
    | ⟨1, _⟩ => exact rhs_mm_1 _ _)
  rw [el, er]

theorem rowSum_apply (v : FVec Ideal S2000x128 .f32) (r : Fin 2000) :
    multiReduction (F := Ideal) .add [1] S2000 v 0x00000000#32 reduces_S2000x128_S2000 (.inl rfl) rfl (ix1 r) = ∑ j : Fin 128, v (ix2 r j) := by
  refine (Ideal.multiReduction_add_single v 0x00000000#32 reduces_S2000x128_S2000 (.inl rfl) rfl (ix1 r)).trans ?_
  refine Finset.sum_congr rfl fun j _ => congrArg v (funext fun a => Fin.ext ?_)
  match a with
  | ⟨0, _⟩ => rfl
  | ⟨1, _⟩ => rfl

theorem col_apply (v : S2000.Idx → EReal) (r : Fin 2000) (u : Fin 1) : shapeCast S2000x1 v shapeCasts_S2000_S2000x1 (ix2 r u) = v (ix1 r) :=
  shapeCast_apply v _ _ _ (by
    rw [Shape.rowMajor_val_two, Shape.rowMajor_val_one]
    show r.val = r.val * 1 + u.val
    have := u.isLt; omega)

theorem colBcast_apply {α : Type} (v : S2000x1.Idx → α) (r : Fin 2000) (d : Fin 128) :
    broadcastTo S2000x128 v broadcasts_S2000x1_S2000x128 (ix2 r d) = v (ix2 r 0) := by
  refine broadcastTo_apply v _ (ix2 r d) (ix2 r 0) fun a => ?_
  match a with
  | ⟨0, _⟩ => rfl
  | ⟨1, _⟩ => rfl

theorem rowBcast_apply {α : Type} (w : S128.Idx → α) (r : Fin 2000) (d : Fin 128) :
    broadcastTo S2000x128 (shapeCast S1x128 w shapeCasts_S128_S1x128) broadcasts_S1x128_S2000x128 (ix2 r d) = w (ix1 d) :=
  (broadcastTo_1b_ab_apply _ _ r d).trans (shapeCast_a_1a_apply w _ 0 d)

-- plane `e` of a three-plane array, taken as a one-plane piece: local `(0, p, q)` sits at `(e, p, q)`
theorem unit_emb3 {n m : Nat} (e : Fin 3) (off : Fin 3 → Nat) (hoff : off = ![e.val, 0, 0])
    (inb : ∀ a, off a + (⟨3, ![1, n, m]⟩ : Shape).size a ≤ (⟨3, ![3, n, m]⟩ : Shape).size a) (u : Fin 1) (p : Fin n) (q : Fin m) :
    (Rect.unit (s := ⟨3, ![3, n, m]⟩) off (⟨3, ![1, n, m]⟩ : Shape).size inb).emb (ix3 u p q) = ix3 e p q := by
  subst hoff
  refine funext fun a => Fin.ext ?_
  match a with
  | ⟨0, _⟩ => show e.val + 1 * u.val = e.val; have := u.isLt; omega
  | ⟨1, _⟩ => show 0 + 1 * p.val = p.val; omega
  | ⟨2, _⟩ => show 0 + 1 * q.val = q.val; omega

theorem unit_emb2 {m : Nat} (e : Fin 3) (off : Fin 2 → Nat) (hoff : off = ![e.val, 0])
    (inb : ∀ a, off a + (⟨2, ![1, m]⟩ : Shape).size a ≤ (⟨2, ![3, m]⟩ : Shape).size a) (u : Fin 1) (q : Fin m) :
    (Rect.unit (s := ⟨2, ![3, m]⟩) off (⟨2, ![1, m]⟩ : Shape).size inb).emb (ix2 u q) = ix2 e q := by
  subst hoff
  refine funext fun a => Fin.ext ?_
  match a with
  | ⟨0, _⟩ => show e.val + 1 * u.val = e.val; have := u.isLt; omega
  | ⟨1, _⟩ => show 0 + 1 * q.val = q.val; omega

theorem ld_plane {n m : Nat} (X : (⟨3, ![3, n, m]⟩ : Shape).Idx → EReal) (e : Fin 3) (off : Fin 3 → Nat) (hoff : off = ![e.val, 0, 0])
    (inb : ∀ a, off a + (⟨3, ![1, n, m]⟩ : Shape).size a ≤ (⟨3, ![3, n, m]⟩ : Shape).size a) (u : Fin 1) (p : Fin n) (q : Fin m) :
    View.ld (Val := Elt Ideal) (e' := .f32) X (Rect.unit (s := ⟨3, ![3, n, m]⟩) off (⟨3, ![1, n, m]⟩ : Shape).size inb) (ix3 u p q) = X (ix3 e p q) :=
  congrArg X (unit_emb3 e off hoff inb u p q)

theorem ld_row {m : Nat} (X : (⟨2, ![3, m]⟩ : Shape).Idx → EReal) (e : Fin 3) (off : Fin 2 → Nat) (hoff : off = ![e.val, 0])
    (inb : ∀ a, off a + (⟨2, ![1, m]⟩ : Shape).size a ≤ (⟨2, ![3, m]⟩ : Shape).size a) (u : Fin 1) (q : Fin m) :
    View.ld (Val := Elt Ideal) (e' := .f32) X (Rect.unit (s := ⟨2, ![3, m]⟩) off (⟨2, ![1, m]⟩ : Shape).size inb) (ix2 u q) = X (ix2 e q) :=
  congrArg X (unit_emb2 e off hoff inb u q)

def laneSum (s : FVec Ideal S2000x128 .f32) : FVec Ideal S2000x1 .f32 :=
  shapeCast S2000x1 (multiReduction (F := Ideal) .add [1] S2000 s 0x00000000#32 reduces_S2000x128_S2000 (.inl rfl) rfl) shapeCasts_S2000_S2000x1
def lanes (c : FVec Ideal S2000x1 .f32) : FVec Ideal S2000x128 .f32 := broadcastTo S2000x128 c broadcasts_S2000x1_S2000x128
def rows (v : FVec Ideal S128 .f32) : FVec Ideal S2000x128 .f32 :=
  broadcastTo S2000x128 (shapeCast S1x128 (shapeCast S128 v shapeCasts_S128_S128) shapeCasts_S128_S1x128) broadcasts_S1x128_S2000x128
def rowMean (s : FVec Ideal S2000x128 .f32) : FVec Ideal S2000x1 .f32 :=
  divf (laneSum s) (broadcast S2000x1 (Scalar.ofBits (F := Ideal) .f32 0x43000000#32))
def lnBlock (H : FVec Ideal S2000x128 .f32) (g be : FVec Ideal S128 .f32) : FVec Ideal S2000x128 .f32 :=
  addf (mulf (mulf (subf H (lanes (rowMean H)))
    (lanes (rsqrt (addf (rowMean (mulf (subf H (lanes (rowMean H))) (subf H (lanes (rowMean H)))))
      (broadcast S2000x1 (Scalar.ofBits (F := Ideal) .f32 0x3727C5AC#32)))))) (rows g)) (rows be)

theorem laneSum_apply (s : FVec Ideal S2000x128 .f32) (r : Fin 2000) (u : Fin 1) : laneSum s (ix2 r u) = ∑ j : Fin 128, s (ix2 r j) :=
  (col_apply _ r u).trans (rowSum_apply s r)
theorem lanes_apply (c : FVec Ideal S2000x1 .f32) (r : Fin 2000) (d : Fin 128) : lanes c (ix2 r d) = c (ix2 r (0 : Fin 1)) :=
  colBcast_apply c r d
theorem rows_apply (v : FVec Ideal S128 .f32) (r : Fin 2000) (d : Fin 128) : rows v (ix2 r d) = v (ix1 d) := by
  unfold rows
  rw [shapeCast_self]
  exact rowBcast_apply v r d
theorem rowMean_apply (s : FVec Ideal S2000x128 .f32) (r : Fin 2000) (u : Fin 1) :
    rowMean s (ix2 r u) = Cert.Spec.mean (fun j => s (ix2 r j)) := by
  show Ideal.div (laneSum s (ix2 r u)) (Ideal.ofBits .f32 0x43000000#32) = _
  rw [laneSum_apply]
  rfl
-- LayerNorm of a block, row by row
theorem lnBlock_apply (H : FVec Ideal S2000x128 .f32) (g be : FVec Ideal S128 .f32) (r : Fin 2000) (d : Fin 128) :
    lnBlock H g be (ix2 r d) = Cert.Spec.layerNorm (fun j => H (ix2 r j)) (fun j => g (ix1 j)) (fun j => be (ix1 j)) d := by
  have hC : ∀ j : Fin 128, subf H (lanes (rowMean H)) (ix2 r j) = H (ix2 r j) - Cert.Spec.mean (fun j => H (ix2 r j)) := fun j => by
    rw [subf_apply, lanes_apply, rowMean_apply]
  unfold lnBlock Cert.Spec.layerNorm
  rw [addf_apply, mulf_apply, mulf_apply, hC, lanes_apply, rows_apply, rows_apply]
  show _ * Ideal.rsqrt (rowMean _ (ix2 r (0 : Fin 1)) + Ideal.ofBits .f32 0x3727C5AC#32) * _ + _ = _
  rw [rowMean_apply]
  simp only [mulf_apply, hC]
  rfl

def sageRow (a x : Fin 128 → EReal) (Wl : S3x128x128.Idx → EReal) (bl : S3x128.Idx → EReal) (Wr : S3x128x128.Idx → EReal)
    (e : Fin 3) (d : Fin 128) : EReal :=
  (∑ k : Fin 128, a k * Wl (ix3 e k d)) + bl (ix2 e d) + ∑ k : Fin 128, x k * Wr (ix3 e k d)

-- the three edge types' rows, each passed through `ν`, summed, divided by three, clamped below at 0
def mixRow (ν : (Fin 128 → EReal) → Fin 128 → EReal) (a : Fin 3 → Fin 128 → EReal) (x : Fin 128 → EReal) (Wl : S3x128x128.Idx → EReal) (bl : S3x128.Idx → EReal)
    (Wr : S3x128x128.Idx → EReal) (d : Fin 128) : EReal :=
  max (Ideal.div (ν (sageRow (a 0) x Wl bl Wr 0) d + ν (sageRow (a 1) x Wl bl Wr 1) d + ν (sageRow (a 2) x Wl bl Wr 2) d) Cert.Spec.three) 0

def sagePlane (a : FVec Ideal S1x2000x128 .f32) (x : FVec Ideal S2000x128 .f32) (wl wr : FVec Ideal S1x128x128 .f32)
    (b : FVec Ideal S1x128 .f32) (r : Fin 2000) (d : Fin 128) : EReal :=
  (∑ k : Fin 128, a (ix3 (0 : Fin 1) r k) * wl (ix3 (0 : Fin 1) k d)) + b (ix2 (0 : Fin 1) d)
    + ∑ k : Fin 128, x (ix2 r k) * wr (ix3 (0 : Fin 1) k d)

-- plane `e` of the blocks gives edge type `e`'s row
theorem sagePlane_ld (x0 : Vec Ideal S3x2000x128 .f32) (x1 : Vec Ideal S2000x128 .f32) (x2 : Vec Ideal S3x128x128 .f32)
    (x3 : Vec Ideal S3x128 .f32) (x4 : Vec Ideal S3x128x128 .f32) (e : Fin 3) (o3 : Fin 3 → Nat) (ho3 : o3 = ![e.val, 0, 0]) (o2 : Fin 2 → Nat) (ho2 : o2 = ![e.val, 0])
    (i0 : ∀ a, o3 a + S1x2000x128.size a ≤ S3x2000x128.size a) (i2 : ∀ a, o3 a + S1x128x128.size a ≤ S3x128x128.size a)
    (i3 : ∀ a, o2 a + S1x128.size a ≤ S3x128.size a) (r : Fin 2000) :
    sagePlane (View.ld x0 (Rect.unit (s := S3x2000x128) o3 S1x2000x128.size i0)) x1
        (View.ld x2 (Rect.unit (s := S3x128x128) o3 S1x128x128.size i2))
        (View.ld x4 (Rect.unit (s := S3x128x128) o3 S1x128x128.size i2))
        (View.ld x3 (Rect.unit (s := S3x128) o2 S1x128.size i3)) r
      = sageRow (fun k => x0 (ix3 e r k)) (fun k => x1 (ix2 r k)) x2 x3 x4 e := by
  funext d
  unfold sagePlane sageRow
  simp only [ld_plane x0 e o3 ho3 i0, ld_plane x2 e o3 ho3 i2, ld_plane x4 e o3 ho3 i2, ld_row x3 e o2 ho2 i3]

end Cert.KernelIdeal.Val

end
-- ==== Proof.KIValue0.lean ====
import proofs.«429923_j72335839199437_1_alg».proof.Proof.KIRegion0
import proofs.«429923_j72335839199437_1_alg».proof.Proof.KIValueLib

set_option maxRecDepth 16384

noncomputable section

open scoped BigOperators

namespace Cert.KernelIdeal.Val.R0

open Idealize.ShloMosaic Idealize.ShloMosaic.ValueIdx Idealize.ShloMosaic.TcCoe Cert.KernelIdeal Cert.KernelIdeal.Gen
open Idealize.ShloMosaic.Pipeline (Dat)

def blockVal (x : Vec Ideal S2000x128 .f32) (w : Vec Ideal S3x128x128 .f32) (b : Vec Ideal S3x128 .f32) : Vec Ideal S3x2000x128 .f32 :=
  fun y => max ((∑ k : Fin 128, x (ix2 (y 1) k) * w (ix3 (y 0) k (y 2))) + b (ix2 (y 0) (y 2))) 0

theorem pay3_apply (x : Vec Ideal S2000x128 .f32) (w : Vec Ideal S1x128x128 .f32) (b : Vec Ideal S1x128 .f32) (u : Fin 1) (r : Fin 2000) (d : Fin 128) :
    k0_pay3 (F := Ideal) x w b (ix3 u r d) = max ((∑ k : Fin 128, x (ix2 r k) * w (ix3 (0 : Fin 1) k d)) + b (ix2 (0 : Fin 1) d)) 0 := by
  unfold k0_pay3 k0_pay2
  dsimp only
  rw [shapeCast_ab_1ab_apply, maximumf_apply, addf_apply, broadcast_apply, mm_apply, broadcastTo_1b_ab_apply, shapeCast_a_1a_apply, shapeCast_1a_a_apply]
  simp only [truncf_apply, shapeCast_1ab_ab_apply]
  rw [show (FloatOps.ofBits FTy.f32 0x00000000#32 : Ideal .f32) = 0 from Ideal.ofBits_zero_f32]

-- the three stored slabs are one payload, over plane `e` of the weights and row `e` of the biases, stored at plane `e`
theorem piece_eq (x : Vec Ideal S2000x128 .f32) (w : Vec Ideal S3x128x128 .f32) (b : Vec Ideal S3x128 .f32) (e : Fin 3)
    (o3 : Fin 3 → Nat) (h3 : o3 = ![e.val, 0, 0]) (o2 : Fin 2 → Nat) (h2 : o2 = ![e.val, 0]) (jx jw jb jo) (y : S1x2000x128.Idx) :
    k0_pay3 (F := Ideal) (View.ld x (Rect.unit (s := S2000x128) ![0, 0] S2000x128.size jx)) (View.ld w (Rect.unit (s := S3x128x128) o3 S1x128x128.size jw))
        (View.ld b (Rect.unit (s := S3x128) o2 S1x128.size jb)) y
      = blockVal x w b ((Rect.unit (s := S3x2000x128) o3 S1x2000x128.size jo).emb y) := by
  obtain ⟨u, r, d, rfl⟩ : ∃ (u : Fin 1) (r : Fin 2000) (d : Fin 128), y = ix3 u r d := ⟨y 0, y 1, y 2, eq_ix3 y⟩
  rw [pay3_apply, View.ld_unit_zero (S := S2000x128) hz2, unit_emb3 e o3 h3 jo]
  simp only [ld_plane w e o3 h3 jw, ld_row b e o2 h2 jb]
  rfl

theorem out0_3_eq (x : Vec Ideal S2000x128 .f32) (w : Vec Ideal S3x128x128 .f32) (b : Vec Ideal S3x128 .f32) :
    Rgn.out0_3 (F := Ideal) x w b = blockVal x w b := by
  funext y
  unfold Rgn.out0_3
  refine View.canon_apply_of_pieces (blockVal x w b) _ ?_ y (Rgn.cover0_3 _ _ _ y)
  intro p hp x'
  simp only [List.mem_cons, List.not_mem_nil, or_false] at hp
  rcases hp with rfl | rfl | rfl
  · exact piece_eq x w b 2 _ rfl _ rfl _ _ _ inb_S3x2000x128_S1x2000x128_2_0_0 x'
  · exact piece_eq x w b 1 _ rfl _ rfl _ _ _ inb_S3x2000x128_S1x2000x128_1_0_0 x'
  · exact piece_eq x w b 0 _ rfl _ rfl _ _ _ inb_S3x2000x128_S1x2000x128_0_0_0 x'

def arrVal (X : S100000x128.Idx → EReal) (Wt : S3x128x128.Idx → EReal) (B : S3x128.Idx → EReal) : S3x100000x128.Idx → EReal :=
  fun i => max ((∑ k : Fin 128, X (ix2 (i 1) k) * Wt (ix3 (i 0) k (i 2))) + B (ix2 (i 0) (i 2))) 0

theorem idx_facts0 : ∀ t : Fin cfg0.N,
    win0_0.index t (0 : Fin 2) = win0_3.index t (1 : Fin 3)
    ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (2 : Fin 3) = 0 ∧ win0_3.index t (1 : Fin 3) = t.val :=
  (by decide +kernel : ∀ t : Fin grid0.N, _)

variable (V : (c : Dev nD) → (b : Ref sig .tc) → Buf (Elt Ideal) ((c : Thread nD τ).loc b))

theorem flushed0_3_eq (c : Dev nD) (t : Fin cfg0.N) :
    (Rgn.dat0 (F := Ideal) V c).flushed 3 t = ((cfg0.win 3).blk t).view.read (Elt Ideal)
      (arrVal (V c main_arg0 : S100000x128.Idx → EReal) (V c main_v0 : S3x128x128.Idx → EReal) (V c main_arg5 : S3x128.Idx → EReal)) := by
  show (cfg0.win 3).cut (grid0.coords t) ((Rgn.dat0 (F := Ideal) V c).after 3 t) = _
  rw [Rgn.after0_3, out0_3_eq]
  obtain ⟨e0, e1, e2, e3, e4, e5, e6, e7, e8, e9⟩ := idx_facts0 t
  funext j
  show blockVal (Rgn.iblk0 V c 0 t) (Rgn.iblk0 V c 1 t) (Rgn.iblk0 V c 2 t) j = arrVal (V c main_arg0) (V c main_v0) (V c main_arg5) (((cfg0.win 3).blk t).view.emb j)
  have hx : ∀ k : Fin 128, Rgn.iblk0 V c 0 t (ix2 (j 1) k) = V c main_arg0 (ix2 ((((cfg0.win 3).blk t).view.emb j) 1) k) := fun k => by
    show V c main_arg0 (((cfg0.win 0).blk t).view.emb (ix2 (j 1) k)) = _
    congr 1
    funext a; apply Fin.ext
    match a with
    | ⟨0, _⟩ => show win0_0.index t (0 : Fin 2) * 2000 + 1 * (j 1).val = win0_3.index t (1 : Fin 3) * 2000 + 1 * (j 1).val; omega
    | ⟨1, _⟩ => show win0_0.index t (1 : Fin 2) * 128 + 1 * k.val = k.val; omega
  have hw : ∀ k : Fin 128, Rgn.iblk0 V c 1 t (ix3 (j 0) k (j 2)) = V c main_v0 (ix3 ((((cfg0.win 3).blk t).view.emb j) 0) k ((((cfg0.win 3).blk t).view.emb j) 2)) := fun k => by
    show V c main_v0 (((cfg0.win 1).blk t).view.emb (ix3 (j 0) k (j 2))) = _
    congr 1
    funext a; apply Fin.ext
    match a with
    | ⟨0, _⟩ => show win0_1.index t (0 : Fin 3) * 3 + 1 * (j 0).val = win0_3.index t (0 : Fin 3) * 3 + 1 * (j 0).val; omega
    | ⟨1, _⟩ => show win0_1.index t (1 : Fin 3) * 128 + 1 * k.val = k.val; omega
    | ⟨2, _⟩ => show win0_1.index t (2 : Fin 3) * 128 + 1 * (j 2).val = win0_3.index t (2 : Fin 3) * 128 + 1 * (j 2).val; omega
  have hb : Rgn.iblk0 V c 2 t (ix2 (j 0) (j 2)) = V c main_arg5 (ix2 ((((cfg0.win 3).blk t).view.emb j) 0) ((((cfg0.win 3).blk t).view.emb j) 2)) := by
    show V c main_arg5 (((cfg0.win 2).blk t).view.emb (ix2 (j 0) (j 2))) = _
    congr 1
    funext a; apply Fin.ext
    match a with
    | ⟨0, _⟩ => show win0_2.index t (0 : Fin 2) * 3 + 1 * (j 0).val = win0_3.index t (0 : Fin 3) * 3 + 1 * (j 0).val; omega
    | ⟨1, _⟩ => show win0_2.index t (1 : Fin 2) * 128 + 1 * (j 2).val = win0_3.index t (2 : Fin 3) * 128 + 1 * (j 2).val; omega
  unfold blockVal arrVal
  simp only [hx, hw, hb]

-- row `n` of the output lies in the block of point `n / 2000`
theorem cover0_3 (i : S3x100000x128.Idx) :
    ∃ t : Fin cfg0.N, (cfg0.win 3).flush t = true ∧ i ∈ ((cfg0.win 3).blk t).view.set := by
  have hi0 : (i 0).val < 3 := (i 0).isLt
  have hi1 : (i 1).val < 100000 := (i 1).isLt
  have hi2 : (i 2).val < 128 := (i 2).isLt
  have hN : cfg0.N = 50 := N_0
  let t : Fin cfg0.N := ⟨(i 1).val / 2000, by rw [hN]; omega⟩
  obtain ⟨e0, e1, e2, e3, e4, e5, e6, e7, e8, e9⟩ := idx_facts0 t
  have ht : t.val = (i 1).val / 2000 := rfl
  refine ⟨t, flush0_3 t, ?_⟩
  show i ∈ ((View.whole main_v5).slice (win0_3.rect t)).set
  rw [View.set_slice_whole, Rect.mem_set_unit]
  intro a
  match a with
  | ⟨0, _⟩ => show win0_3.index t (0 : Fin 3) * 3 ≤ (i 0).val ∧ (i 0).val < win0_3.index t (0 : Fin 3) * 3 + 3; omega
  | ⟨1, _⟩ => show win0_3.index t (1 : Fin 3) * 2000 ≤ (i 1).val ∧ (i 1).val < win0_3.index t (1 : Fin 3) * 2000 + 2000; omega
  | ⟨2, _⟩ => show win0_3.index t (2 : Fin 3) * 128 ≤ (i 2).val ∧ (i 2).val < win0_3.index t (2 : Fin 3) * 128 + 128; omega

theorem region0_value (c : Dev nD) :
    ((Rgn.dat0 (F := Ideal) V c).arrAt 3 cfg0.N : S3x100000x128.Idx → EReal) = fun i =>
      Cert.Spec.proj (V c main_arg0 : S100000x128.Idx → EReal) (fun j => (V c main_v0 : S3x128x128.Idx → EReal) (ix3 (j 0) (j 2) (j 1))) (V c main_arg5 : S3x128.Idx → EReal) (i 0) (ix2 (i 1) (i 2)) :=
  (Rgn.dat0 (F := Ideal) V c).arrAt_eq_of_cover 3
    (arrVal (V c main_arg0 : S100000x128.Idx → EReal) (V c main_v0 : S3x128x128.Idx → EReal) (V c main_arg5 : S3x128.Idx → EReal))
    (fun t _ => flushed0_3_eq V c t) cover0_3

end Cert.KernelIdeal.Val.R0

end
-- ==== Proof.KIValue1.lean ====
import proofs.«429923_j72335839199437_1_alg».proof.Proof.KIRegion1
import proofs.«429923_j72335839199437_1_alg».proof.Proof.KIValueLib

noncomputable section

open scoped BigOperators

namespace Cert.KernelIdeal.Val.R1

open Idealize.ShloMosaic Idealize.ShloMosaic.ValueIdx Cert.KernelIdeal Cert.KernelIdeal.Gen
open Idealize.ShloMosaic.TcCoe Idealize.SL.Sem
open Idealize.ShloMosaic.Pipeline (Dat)

theorem sage_apply (x : FVec Ideal S2000x128 .f32) (a : FVec Ideal S1x2000x128 .f32) (wl wr : FVec Ideal S1x128x128 .f32)
    (b : FVec Ideal S1x128 .f32) (r : Fin 2000) (d : Fin 128) :
    k1_pay7 (F := Ideal) (k1_pay2 (F := Ideal) x) a wl wr b (ix2 r d) = sagePlane a x wl wr b r d := by
  unfold k1_pay7 k1_pay2 sagePlane
  simp only [addf_apply, mm_apply, rowBcast_apply, truncf_apply, shapeCast_1ab_ab_apply, shapeCast_1a_a_apply]

def normed (s sq : FVec Ideal S2000x128 .f32) : FVec Ideal S2000x128 .f32 :=
  divf s (lanes (maximumf (sqrt (laneSum sq)) (broadcast S2000x1 (Scalar.ofBits (F := Ideal) .f32 0x2B8CBCCC#32))))
def relu3 (s : FVec Ideal S2000x128 .f32) : FVec Ideal S2000x128 .f32 :=
  maximumf (divf s (broadcast S2000x128 (Scalar.ofBits (F := Ideal) .f32 0x40400000#32))) (broadcast S2000x128 (Scalar.ofBits (F := Ideal) .f32 0x00000000#32))
set_option maxRecDepth 65536 in
theorem pay1_eq (v54 v71 v72 : FVec Ideal S2000x128 .f32) (g be : FVec Ideal S128 .f32) :
    k1_pay1 (F := Ideal) v54 v71 v72 g be = lnBlock (relu3 (addf v54 (normed v71 v72))) g be := rfl

set_option maxRecDepth 65536 in
theorem pay3_eq (x : FVec Ideal S2000x128 .f32) (a : FVec Ideal S1x2000x128 .f32) (wl wr : FVec Ideal S1x128x128 .f32) (b : FVec Ideal S1x128 .f32) :
    k1_pay3 (F := Ideal) x a wl wr b = addf (broadcast S2000x128 (Scalar.ofBits (F := Ideal) .f32 0x00000000#32))
      (normed (k1_pay7 (F := Ideal) (k1_pay2 (F := Ideal) x) a wl wr b)
        (mulf (k1_pay7 (F := Ideal) (k1_pay2 (F := Ideal) x) a wl wr b) (k1_pay7 (F := Ideal) (k1_pay2 (F := Ideal) x) a wl wr b))) := rfl

set_option maxRecDepth 65536 in
theorem pay6_eq (v1 : FVec Ideal S2000x128 .bf16) (v28 : FVec Ideal S2000x128 .f32) (a : FVec Ideal S1x2000x128 .f32) (wl wr : FVec Ideal S1x128x128 .f32) (b : FVec Ideal S1x128 .f32) :
    k1_pay6 (F := Ideal) v1 v28 (k1_pay4 (F := Ideal) a) (k1_pay5 (F := Ideal) wl) wr b = addf v28
      (normed (k1_pay7 (F := Ideal) v1 a wl wr b) (mulf (k1_pay7 (F := Ideal) v1 a wl wr b) (k1_pay7 (F := Ideal) v1 a wl wr b))) := rfl

theorem pay8_eq (v1 : FVec Ideal S2000x128 .bf16) (a : FVec Ideal S1x2000x128 .f32) (wl wr : FVec Ideal S1x128x128 .f32) (b : FVec Ideal S1x128 .f32) :
    k1_pay8 (F := Ideal) v1 a wl wr b = mulf (k1_pay7 (F := Ideal) v1 a wl wr b) (k1_pay7 (F := Ideal) v1 a wl wr b) := rfl

theorem normed_apply (s sq : FVec Ideal S2000x128 .f32) (r : Fin 2000) (d : Fin 128) :
    normed s sq (ix2 r d) = Ideal.div (s (ix2 r d)) (max (Ideal.sqrt (∑ j : Fin 128, sq (ix2 r j))) Cert.Spec.epsNorm) := by
  unfold normed
  rw [divf_apply, lanes_apply]
  show Ideal.div (s (ix2 r d)) (max (Ideal.sqrt (laneSum sq (ix2 r (0 : Fin 1)))) (Ideal.ofBits .f32 0x2B8CBCCC#32)) = _
  rw [laneSum_apply]
  rfl
theorem relu3_apply (s : FVec Ideal S2000x128 .f32) (i : S2000x128.Idx) :
    relu3 s i = max (Ideal.div (s i) Cert.Spec.three) 0 := by
  show max (Ideal.div (s i) (Ideal.ofBits .f32 0x40400000#32)) (Ideal.ofBits .f32 0x00000000#32) = _
  rw [Ideal.ofBits_zero_f32]
  rfl
theorem body_apply (X : FVec Ideal S2000x128 .f32) (A0 A1 A2 : FVec Ideal S1x2000x128 .f32)
    (L0 L1 L2 R0 R1 R2 : FVec Ideal S1x128x128 .f32) (B0 B1 B2 : FVec Ideal S1x128 .f32) (g be : FVec Ideal S128 .f32)
    (r : Fin 2000) (d : Fin 128) :
    k1_pay1 (F := Ideal)
      (k1_pay6 (F := Ideal) (k1_pay2 (F := Ideal) X) (k1_pay3 (F := Ideal) X A0 L0 R0 B0) (k1_pay4 (F := Ideal) A1) (k1_pay5 (F := Ideal) L1) R1 B1)
      (k1_pay7 (F := Ideal) (k1_pay2 (F := Ideal) X) A2 L2 R2 B2) (k1_pay8 (F := Ideal) (k1_pay2 (F := Ideal) X) A2 L2 R2 B2) g be (ix2 r d)
      = Cert.Spec.layerNorm (fun j => max (Ideal.div (Cert.Spec.unit (sagePlane A0 X L0 R0 B0 r) j
          + Cert.Spec.unit (sagePlane A1 X L1 R1 B1 r) j + Cert.Spec.unit (sagePlane A2 X L2 R2 B2 r) j) Cert.Spec.three) 0)
          (fun j => g (ix1 j)) (fun j => be (ix1 j)) d := by
  rw [pay1_eq, lnBlock_apply]
  refine congrArg (fun h => Cert.Spec.layerNorm h (fun j => g (ix1 j)) (fun j => be (ix1 j)) d) (funext fun j => ?_)
  rw [relu3_apply, addf_apply, normed_apply, pay6_eq, addf_apply, normed_apply, pay3_eq, addf_apply, normed_apply]
  simp only [pay8_eq, mulf_apply, sage_apply]
  show max (Ideal.div (Ideal.ofBits .f32 0x00000000#32 + _ + _ + _) _) 0 = _
  rw [Ideal.ofBits_zero_f32, zero_add]
  rfl

theorem out_apply (x0 : Vec Ideal S3x2000x128 .f32) (x1 : Vec Ideal S2000x128 .f32) (x2 : Vec Ideal S3x128x128 .f32)
    (x3 : Vec Ideal S3x128 .f32) (x4 : Vec Ideal S3x128x128 .f32) (x5 x6 : Vec Ideal S128 .f32) (r : Fin 2000) (d : Fin 128) :
    Rgn.out1_7 (F := Ideal) x0 x1 x2 x3 x4 x5 x6 (ix2 r d)
      = Cert.Spec.layerNorm (mixRow Cert.Spec.unit (fun e k => x0 (ix3 e r k)) (fun k => x1 (ix2 r k)) x2 x3 x4)
          (fun j => x5 (ix1 j)) (fun j => x6 (ix1 j)) d := by
  unfold Rgn.out1_7
  rw [View.canon_unit_zero hz2]
  simp only [View.ld_unit_zero (S := S2000x128) hz2, View.ld_unit_zero (S := S128) hz1]
  refine (body_apply x1 _ _ _ _ _ _ _ _ _ _ _ _ x5 x6 r d).trans ?_
  have s0 : sagePlane (View.ld x0 Rgn.r1_1) x1 (View.ld x2 Rgn.r1_2)
      (View.ld x4 Rgn.r1_2) (View.ld x3 Rgn.r1_3) r = _ :=
    sagePlane_ld x0 x1 x2 x3 x4 0 _ rfl _ rfl _ _ _ r
  have s1 : sagePlane (View.ld x0 Rgn.r1_4) x1 (View.ld x2 Rgn.r1_5)
      (View.ld x4 Rgn.r1_5) (View.ld x3 Rgn.r1_6) r = _ :=
    sagePlane_ld x0 x1 x2 x3 x4 1 _ rfl _ rfl _ _ _ r
  have s2 : sagePlane (View.ld x0 Rgn.r1_7) x1 (View.ld x2 Rgn.r1_8)
      (View.ld x4 Rgn.r1_8) (View.ld x3 Rgn.r1_9) r = _ :=
    sagePlane_ld x0 x1 x2 x3 x4 2 _ rfl _ rfl _ _ _ r
  rw [s0, s1, s2]
  rfl

section Array

variable (V : (c : Dev nD) → (b : Ref sig .tc) → Buf (Elt Ideal) ((c : Thread nD τ).loc b))

theorem idx_facts : ∀ t : Fin cfg1.N,
    win1_0.index t (0 : Fin 3) = 0 ∧ win1_0.index t (1 : Fin 3) = t.val ∧ win1_0.index t (2 : Fin 3) = 0
    ∧ win1_1.index t (0 : Fin 2) = t.val ∧ win1_1.index t (1 : Fin 2) = 0
    ∧ win1_7.index t (0 : Fin 2) = t.val ∧ win1_7.index t (1 : Fin 2) = 0 :=
  (by decide +kernel : ∀ t : Fin grid1.N, _)

theorem whole_facts : ∀ t : Fin cfg1.N, (∀ a, win1_2.index t a = 0) ∧ (∀ a, win1_3.index t a = 0) ∧ (∀ a, win1_4.index t a = 0)
    ∧ (∀ a, win1_5.index t a = 0) ∧ (∀ a, win1_6.index t a = 0) :=
  (by decide +kernel : ∀ t : Fin grid1.N, _)

theorem blk0_apply (c : Dev nD) (t : Fin cfg1.N) (e : Fin 3) (r : Fin 2000) (k : Fin 128) (n : Fin 100000) (hn : n.val = 2000 * t.val + r.val) :
    (Rgn.iblk1 V c 0 t : S3x2000x128.Idx → EReal) (ix3 e r k) = (V c main_v63 : S3x100000x128.Idx → EReal) (ix3 e n k) := by
  obtain ⟨h0, h1, h2, -⟩ := idx_facts t
  show V c main_v63 (((cfg1.win 0).blk t).view.emb (ix3 e r k)) = _
  congr 1
  funext a
  apply Fin.ext
  match a with
  | ⟨0, _⟩ => show win1_0.index t (0 : Fin 3) * 3 + 1 * e.val = e.val; omega
  | ⟨1, _⟩ => show win1_0.index t (1 : Fin 3) * 2000 + 1 * r.val = n.val; omega
  | ⟨2, _⟩ => show win1_0.index t (2 : Fin 3) * 128 + 1 * k.val = k.val; omega

theorem blk1_apply (c : Dev nD) (t : Fin cfg1.N) (r : Fin 2000) (k : Fin 128) (n : Fin 100000) (hn : n.val = 2000 * t.val + r.val) :
    (Rgn.iblk1 V c 1 t : S2000x128.Idx → EReal) (ix2 r k) = (V c main_arg0 : S100000x128.Idx → EReal) (ix2 n k) := by
  obtain ⟨-, -, -, h0, h1, -⟩ := idx_facts t
  show V c main_arg0 (((cfg1.win 1).blk t).view.emb (ix2 r k)) = _
  congr 1
  funext a
  apply Fin.ext
  match a with
  | ⟨0, _⟩ => show win1_1.index t (0 : Fin 2) * 2000 + 1 * r.val = n.val; omega
  | ⟨1, _⟩ => show win1_1.index t (1 : Fin 2) * 128 + 1 * k.val = k.val; omega

theorem blk2_eq (c : Dev nD) (t : Fin cfg1.N) : (Rgn.iblk1 V c 2 t : S3x128x128.Idx → EReal) = (V c main_v1 : S3x128x128.Idx → EReal) :=
  funext fun i => congrArg (V c main_v1) (funext fun a => Fin.ext (win1_2.rect_emb_val_of_index_zero t a ((whole_facts t).1 a) i))
theorem blk3_eq (c : Dev nD) (t : Fin cfg1.N) : (Rgn.iblk1 V c 3 t : S3x128.Idx → EReal) = (V c main_arg7 : S3x128.Idx → EReal) :=
  funext fun i => congrArg (V c main_arg7) (funext fun a => Fin.ext (win1_3.rect_emb_val_of_index_zero t a ((whole_facts t).2.1 a) i))
theorem blk4_eq (c : Dev nD) (t : Fin cfg1.N) : (Rgn.iblk1 V c 4 t : S3x128x128.Idx → EReal) = (V c main_v2 : S3x128x128.Idx → EReal) :=
  funext fun i => congrArg (V c main_v2) (funext fun a => Fin.ext (win1_4.rect_emb_val_of_index_zero t a ((whole_facts t).2.2.1 a) i))
theorem blk5_eq (c : Dev nD) (t : Fin cfg1.N) : (Rgn.iblk1 V c 5 t : S128.Idx → EReal) = (V c main_v65 : S128.Idx → EReal) :=
  funext fun i => congrArg (V c main_v65) (funext fun a => Fin.ext (win1_5.rect_emb_val_of_index_zero t a ((whole_facts t).2.2.2.1 a) i))
theorem blk6_eq (c : Dev nD) (t : Fin cfg1.N) : (Rgn.iblk1 V c 6 t : S128.Idx → EReal) = (V c main_v67 : S128.Idx → EReal) :=
  funext fun i => congrArg (V c main_v67) (funext fun a => Fin.ext (win1_6.rect_emb_val_of_index_zero t a ((whole_facts t).2.2.2.2 a) i))

abbrev result (c : Dev nD) : S100000x128.Idx → EReal :=
  Cert.Spec.ln0 (fun e i => (V c main_v63 : S3x100000x128.Idx → EReal) (ix3 e (i 0) (i 1))) (V c main_arg0 : S100000x128.Idx → EReal)
    (fun j => (V c main_v1 : S3x128x128.Idx → EReal) (ix3 (j 0) (j 2) (j 1))) (V c main_arg7 : S3x128.Idx → EReal)
    (fun j => (V c main_v2 : S3x128x128.Idx → EReal) (ix3 (j 0) (j 2) (j 1)))
    (fun j => (V c main_v65 : S128.Idx → EReal) (ix1 j)) (fun j => (V c main_v67 : S128.Idx → EReal) (ix1 j))

theorem emb7 (t : Fin cfg1.N) (r : Fin 2000) (d : Fin 128) (n : Fin 100000) (hn : n.val = 2000 * t.val + r.val) :
    ((cfg1.win 7).blk t).view.emb (ix2 r d) = (ix2 n d : S100000x128.Idx) := by
  obtain ⟨-, -, -, -, -, h0, h1⟩ := idx_facts t
  funext a
  apply Fin.ext
  match a with
  | ⟨0, _⟩ => show win1_7.index t (0 : Fin 2) * 2000 + 1 * r.val = n.val; omega
  | ⟨1, _⟩ => show win1_7.index t (1 : Fin 2) * 128 + 1 * d.val = d.val; omega

theorem flushed_eq (c : Dev nD) (t : Fin cfg1.N) :
    (Rgn.dat1 (F := Ideal) V c).flushed 7 t = ((cfg1.win 7).blk t).view.read (Elt Ideal) (result V c) := by
  show (cfg1.win 7).cut (grid1.coords t) ((Rgn.dat1 (F := Ideal) V c).after 7 t) = _
  rw [Rgn.after1_7]
  funext j
  obtain ⟨r, d, rfl⟩ : ∃ (r : Fin 2000) (d : Fin 128), j = ix2 r d := ⟨j 0, j 1, eq_ix2 j⟩
  have ht : t.val < 50 := Nat.lt_of_lt_of_eq t.isLt (show cfg1.N = 50 from N_1)
  have hr : r.val < 2000 := r.isLt
  refine (out_apply (Rgn.iblk1 V c 0 t) (Rgn.iblk1 V c 1 t) (Rgn.iblk1 V c 2 t) (Rgn.iblk1 V c 3 t) (Rgn.iblk1 V c 4 t)
    (Rgn.iblk1 V c 5 t) (Rgn.iblk1 V c 6 t) r d).trans ?_
  rw [View.read_apply, blk2_eq V c t, blk3_eq V c t, blk4_eq V c t, blk5_eq V c t, blk6_eq V c t]
  show _ = result V c (((cfg1.win 7).blk t).view.emb (ix2 r d))
  rw [emb7 t r d ⟨2000 * t.val + r.val, by omega⟩ rfl]
  simp only [blk0_apply V c t _ r _ ⟨2000 * t.val + r.val, by omega⟩ rfl, blk1_apply V c t r _ ⟨2000 * t.val + r.val, by omega⟩ rfl]
  rfl

-- row `n` of the output lies in the block of point `n / 2000`
theorem cover (i : S100000x128.Idx) : ∃ t : Fin cfg1.N, (cfg1.win 7).flush t = true ∧ i ∈ ((cfg1.win 7).blk t).view.set := by
  have hN : cfg1.N = 50 := N_1
  have hi0 : (i 0).val < 100000 := (i 0).isLt
  have hi1 : (i 1).val < 128 := (i 1).isLt
  obtain ⟨t, htv⟩ : ∃ t : Fin cfg1.N, t.val = (i 0).val / 2000 := ⟨⟨(i 0).val / 2000, by rw [hN]; omega⟩, rfl⟩
  obtain ⟨-, -, -, -, -, h0, h1⟩ := idx_facts t
  refine ⟨t, flush1_7 t, ?_⟩
  show i ∈ ((View.whole main_v68).slice (win1_7.rect t)).set
  rw [View.set_slice_whole, Rect.mem_set_unit]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 128 ≤ (i 1).val ∧ (i 1).val < win1_7.index t (1 : Fin 2) * 128 + 128; omega

end Array

theorem region1_value (V : (c : Dev nD) → (b : Ref sig .tc) → Buf (Elt Ideal) ((c : Thread nD τ).loc b)) (c : Dev nD) :
    ((Rgn.dat1 (F := Ideal) V c).arrAt 7 cfg1.N : S100000x128.Idx → EReal) =
      Cert.Spec.ln0 (fun e i => (V c main_v63 : S3x100000x128.Idx → EReal) (ix3 e (i 0) (i 1))) (V c main_arg0 : S100000x128.Idx → EReal)
        (fun j => (V c main_v1 : S3x128x128.Idx → EReal) (ix3 (j 0) (j 2) (j 1))) (V c main_arg7 : S3x128.Idx → EReal)
        (fun j => (V c main_v2 : S3x128x128.Idx → EReal) (ix3 (j 0) (j 2) (j 1)))
        (fun j => (V c main_v65 : S128.Idx → EReal) (ix1 j)) (fun j => (V c main_v67 : S128.Idx → EReal) (ix1 j)) :=
  (Rgn.dat1 (F := Ideal) V c).arrAt_eq_of_cover 7 (result V c) (fun t _ => flushed_eq V c t) cover

end Cert.KernelIdeal.Val.R1

end
-- ==== Proof.KIValue2.lean ====
import proofs.«429923_j72335839199437_1_alg».proof.Proof.KIRegion2
import proofs.«429923_j72335839199437_1_alg».proof.Proof.KIValueLib

set_option maxRecDepth 16384

noncomputable section

open scoped BigOperators

namespace Cert.KernelIdeal.Val.R2

open Idealize.ShloMosaic Idealize.ShloMosaic.TcCoe Idealize.ShloMosaic.ValueIdx
open Idealize.ShloMosaic.Pipeline (Dat)
open Cert.KernelIdeal Cert.KernelIdeal.Gen

theorem pay2_apply (v0 : Vec Ideal S2000x128 .f32) (r : Fin 2000) (k : Fin 128) : k2_pay2 v0 (ix2 r k) = v0 (ix2 r k) := by
  unfold k2_pay2
  simp only [shapeCast_self, truncf_apply]

theorem pay4_apply (v22 : Vec Ideal S1x2000x128 .f32) (r : Fin 2000) (k : Fin 128) :
    k2_pay4 v22 (ix2 r k) = v22 (ix3 0 r k) := by
  unfold k2_pay4
  simp only [truncf_apply, shapeCast_1ab_ab_apply]

theorem pay5_apply (v25 : Vec Ideal S1x128x128 .f32) (k d : Fin 128) : k2_pay5 v25 (ix2 k d) = v25 (ix3 0 k d) := by
  unfold k2_pay5
  simp only [truncf_apply, shapeCast_1ab_ab_apply]

theorem pay6_apply (v28 : Vec Ideal S1x128x128 .f32) (k d : Fin 128) : k2_pay6 v28 (ix2 k d) = v28 (ix3 0 k d) :=
  pay5_apply v28 k d

theorem pay3_apply (v0 : Vec Ideal S2000x128 .f32) (v4 : Vec Ideal S1x2000x128 .f32) (v7 v10 : Vec Ideal S1x128x128 .f32)
    (v13 : Vec Ideal S1x128 .f32) (r : Fin 2000) (d : Fin 128) :
    k2_pay3 v0 v4 v7 v10 v13 (ix2 r d) = sagePlane v4 v0 v7 v10 v13 r d := by
  unfold k2_pay3 sagePlane
  simp only [addf_apply, broadcast_apply, mm_apply, rowBcast_apply, shapeCast_1a_a_apply, truncf_apply, shapeCast_1ab_ab_apply, pay2_apply,
    Ideal.ofBits_def, Ideal.ofBits_zero_f32, zero_add]

-- the three rows summed, divided by three, clamped below at 0
theorem pay7_apply (X : Vec Ideal S2000x128 .f32) (v21 : FVec Ideal S2000x128 .f32) (A1 A2 : Vec Ideal S1x2000x128 .f32)
    (L1 R1 L2 R2 : Vec Ideal S1x128x128 .f32) (B1 B2 : Vec Ideal S1x128 .f32) (r : Fin 2000) (d : Fin 128) :
    k2_pay7 (k2_pay2 X) v21 (k2_pay4 A1) (k2_pay5 L1) (k2_pay6 R1) B1 A2 L2 R2 B2 (ix2 r d)
      = max (Ideal.div (v21 (ix2 r d) + sagePlane A1 X L1 R1 B1 r d + sagePlane A2 X L2 R2 B2 r d) Cert.Spec.three) 0 := by
  unfold k2_pay7 sagePlane Cert.Spec.three
  simp only [maximumf_apply, divf_apply, addf_apply, broadcast_apply, mm_apply, rowBcast_apply, shapeCast_1a_a_apply, truncf_apply,
    shapeCast_1ab_ab_apply, Ideal.ofBits_def, Ideal.ofBits_zero_f32, pay2_apply, pay4_apply, pay5_apply, pay6_apply]

section

variable (v2 : FVec Ideal S2000x128 .bf16) (v21 : FVec Ideal S2000x128 .f32) (v24 : FVec Ideal S2000x128 .bf16)
    (v27 v30 : FVec Ideal S128x128 .bf16) (v31 : Vec Ideal S1x128 .f32) (v40 : Vec Ideal S1x2000x128 .f32)
    (v43 v46 : Vec Ideal S1x128x128 .f32) (v49 : Vec Ideal S1x128 .f32)

-- the stored block is the LayerNorm block of the clamped rows
theorem pay1_ln (g be : Vec Ideal S128 .f32) :
    k2_pay1 (k2_pay7 v2 v21 v24 v27 v30 v31 v40 v43 v46 v49) (k2_pay8 v2 v21 v24 v27 v30 v31 v40 v43 v46 v49) (k2_pay9 v2 v21 v24 v27 v30 v31 v40 v43 v46 v49) (Scalar.ofBits (F := Ideal) .f32 0x43000000#32) g be
      = lnBlock (k2_pay7 v2 v21 v24 v27 v30 v31 v40 v43 v46 v49) g be := rfl

end

theorem pay7_block (x0 : Vec Ideal S3x2000x128 .f32) (x1 : Vec Ideal S2000x128 .f32) (x2 : Vec Ideal S3x128x128 .f32)
    (x3 : Vec Ideal S3x128 .f32) (x4 : Vec Ideal S3x128x128 .f32) (r : Fin 2000) (j : Fin 128) :
    k2_pay7 (k2_pay2 (View.ld x1 Rgn.r2_0)) (k2_pay3 (View.ld x1 Rgn.r2_0) (View.ld x0 Rgn.r2_1) (View.ld x2 Rgn.r2_2) (View.ld x4 Rgn.r2_2) (View.ld x3 Rgn.r2_3))
        (k2_pay4 (View.ld x0 Rgn.r2_4)) (k2_pay5 (View.ld x2 Rgn.r2_5)) (k2_pay6 (View.ld x4 Rgn.r2_5)) (View.ld x3 Rgn.r2_6)
        (View.ld x0 Rgn.r2_7) (View.ld x2 Rgn.r2_8) (View.ld x4 Rgn.r2_8) (View.ld x3 Rgn.r2_9) (ix2 r j)
      = mixRow (fun f => f) (fun e k => x0 (ix3 e r k)) (fun k => x1 (ix2 r k)) x2 x3 x4 j := by
  rw [pay7_apply, pay3_apply, View.ld_unit_zero (S := S2000x128) hz2]
  have s0 : sagePlane (View.ld x0 Rgn.r2_1) x1 (View.ld x2 Rgn.r2_2) (View.ld x4 Rgn.r2_2) (View.ld x3 Rgn.r2_3) r = _ :=
    sagePlane_ld x0 x1 x2 x3 x4 0 _ rfl _ rfl _ _ _ r
  have s1 : sagePlane (View.ld x0 Rgn.r2_4) x1 (View.ld x2 Rgn.r2_5) (View.ld x4 Rgn.r2_5) (View.ld x3 Rgn.r2_6) r = _ :=
    sagePlane_ld x0 x1 x2 x3 x4 1 _ rfl _ rfl _ _ _ r
  have s2 : sagePlane (View.ld x0 Rgn.r2_7) x1 (View.ld x2 Rgn.r2_8) (View.ld x4 Rgn.r2_8) (View.ld x3 Rgn.r2_9) r = _ :=
    sagePlane_ld x0 x1 x2 x3 x4 2 _ rfl _ rfl _ _ _ r
  rw [s0, s1, s2]
  rfl

theorem out2_7_apply (x0 : Vec Ideal S3x2000x128 .f32) (x1 : Vec Ideal S2000x128 .f32) (x2 : Vec Ideal S3x128x128 .f32)
    (x3 : Vec Ideal S3x128 .f32) (x4 : Vec Ideal S3x128x128 .f32) (x5 x6 : Vec Ideal S128 .f32) (r : Fin 2000) (d : Fin 128) :
    Rgn.out2_7 (F := Ideal) x0 x1 x2 x3 x4 x5 x6 (ix2 r d)
      = Cert.Spec.layerNorm (mixRow (fun f => f) (fun e k => x0 (ix3 e r k)) (fun k => x1 (ix2 r k)) x2 x3 x4) (fun j => x5 (ix1 j)) (fun j => x6 (ix1 j)) d := by
  unfold Rgn.out2_7
  rw [View.canon_unit_zero hz2, View.ld_unit_zero (S := S128) hz1, View.ld_unit_zero (S := S128) hz1, pay1_ln, lnBlock_apply]
  exact congrArg (fun h => Cert.Spec.layerNorm h (fun j => x5 (ix1 j)) (fun j => x6 (ix1 j)) d) (funext fun j => pay7_block x0 x1 x2 x3 x4 r j)

theorem mixRow_eq_mix1 (x0 : S3x2000x128.Idx → EReal) (x1 : S2000x128.Idx → EReal) (x2 : S3x128x128.Idx → EReal)
    (x3 : S3x128.Idx → EReal) (x4 : S3x128x128.Idx → EReal) (A : Fin 3 → Cert.Spec.Tab) (X : Cert.Spec.Tab)
    (n : Fin 100000) (r : Fin 2000) (h0 : ∀ (e : Fin 3) (k : Fin 128), x0 (ix3 e r k) = A e (ix2 n k))
    (h1 : ∀ k : Fin 128, x1 (ix2 r k) = X (ix2 n k)) :
    mixRow (fun f => f) (fun e k => x0 (ix3 e r k)) (fun k => x1 (ix2 r k)) x2 x3 x4
      = Cert.Spec.mix1 A X (fun j => x2 (ix3 (j 0) (j 2) (j 1))) x3 (fun j => x4 (ix3 (j 0) (j 2) (j 1))) n := by
  funext d
  unfold mixRow sageRow Cert.Spec.mix1 Cert.Spec.sage Cert.Spec.lin
  simp only [h0, h1]

theorem idx_facts2 : ∀ t : Fin cfg2.N,
    win2_0.index t (0 : Fin 3) = 0 ∧ win2_0.index t (1 : Fin 3) = t.val ∧ win2_0.index t (2 : Fin 3) = 0
    ∧ win2_1.index t (0 : Fin 2) = t.val ∧ win2_1.index t (1 : Fin 2) = 0
    ∧ win2_7.index t (0 : Fin 2) = t.val ∧ win2_7.index t (1 : Fin 2) = 0 :=
  (by decide +kernel : ∀ t : Fin grid2.N, _)

theorem whole_facts2 : ∀ t : Fin cfg2.N, (∀ a, win2_2.index t a = 0) ∧ (∀ a, win2_3.index t a = 0) ∧ (∀ a, win2_4.index t a = 0)
    ∧ (∀ a, win2_5.index t a = 0) ∧ (∀ a, win2_6.index t a = 0) :=
  (by decide +kernel : ∀ t : Fin grid2.N, _)

variable (V : (c : Dev nD) → (b : Ref sig .tc) → Buf (Elt Ideal) ((c : Thread nD τ).loc b))

abbrev G2 (c : Dev nD) : S100000x128.Idx → EReal :=
  Cert.Spec.ln1 (fun e i => (V c main_v120 : S3x100000x128.Idx → EReal) (ix3 e (i 0) (i 1))) (V c main_v68 : S100000x128.Idx → EReal)
    (fun j => (V c main_v3 : S3x128x128.Idx → EReal) (ix3 (j 0) (j 2) (j 1))) (V c main_arg10 : S3x128.Idx → EReal)
    (fun j => (V c main_v4 : S3x128x128.Idx → EReal) (ix3 (j 0) (j 2) (j 1)))
    (fun j => (V c main_v122 : S128.Idx → EReal) (ix1 j)) (fun j => (V c main_v124 : S128.Idx → EReal) (ix1 j))

theorem iblk2_2 (c : Dev nD) (t : Fin cfg2.N) : (Rgn.iblk2 V c 2 t : S3x128x128.Idx → EReal) = (V c main_v3 : S3x128x128.Idx → EReal) :=
  funext fun i => congrArg (V c main_v3) (funext fun a => Fin.ext (win2_2.rect_emb_val_of_index_zero t a ((whole_facts2 t).1 a) i))
theorem iblk2_3 (c : Dev nD) (t : Fin cfg2.N) : (Rgn.iblk2 V c 3 t : S3x128.Idx → EReal) = (V c main_arg10 : S3x128.Idx → EReal) :=
  funext fun i => congrArg (V c main_arg10) (funext fun a => Fin.ext (win2_3.rect_emb_val_of_index_zero t a ((whole_facts2 t).2.1 a) i))
theorem iblk2_4 (c : Dev nD) (t : Fin cfg2.N) : (Rgn.iblk2 V c 4 t : S3x128x128.Idx → EReal) = (V c main_v4 : S3x128x128.Idx → EReal) :=
  funext fun i => congrArg (V c main_v4) (funext fun a => Fin.ext (win2_4.rect_emb_val_of_index_zero t a ((whole_facts2 t).2.2.1 a) i))
theorem iblk2_5 (c : Dev nD) (t : Fin cfg2.N) : (Rgn.iblk2 V c 5 t : S128.Idx → EReal) = (V c main_v122 : S128.Idx → EReal) :=
  funext fun i => congrArg (V c main_v122) (funext fun a => Fin.ext (win2_5.rect_emb_val_of_index_zero t a ((whole_facts2 t).2.2.2.1 a) i))
theorem iblk2_6 (c : Dev nD) (t : Fin cfg2.N) : (Rgn.iblk2 V c 6 t : S128.Idx → EReal) = (V c main_v124 : S128.Idx → EReal) :=
  funext fun i => congrArg (V c main_v124) (funext fun a => Fin.ext (win2_6.rect_emb_val_of_index_zero t a ((whole_facts2 t).2.2.2.2 a) i))

theorem iblk2_0_apply (c : Dev nD) (t : Fin cfg2.N) (e : Fin 3) (r : Fin 2000) (k : Fin 128) (n : Fin 100000)
    (hn : n.val = t.val * 2000 + r.val) :
    (Rgn.iblk2 V c 0 t : S3x2000x128.Idx → EReal) (ix3 e r k) = (V c main_v120 : S3x100000x128.Idx → EReal) (ix3 e n k) := by
  obtain ⟨e0, e1, e2, -⟩ := idx_facts2 t
  show V c main_v120 (((cfg2.win 0).blk t).view.emb (ix3 e r k)) = _
  congr 1
  funext a; apply Fin.ext
  match a with
  | ⟨0, _⟩ => show win2_0.index t (0 : Fin 3) * 3 + 1 * e.val = e.val; omega
  | ⟨1, _⟩ => show win2_0.index t (1 : Fin 3) * 2000 + 1 * r.val = n.val; omega
  | ⟨2, _⟩ => show win2_0.index t (2 : Fin 3) * 128 + 1 * k.val = k.val; omega

theorem iblk2_1_apply (c : Dev nD) (t : Fin cfg2.N) (r : Fin 2000) (k : Fin 128) (n : Fin 100000)
    (hn : n.val = t.val * 2000 + r.val) :
    (Rgn.iblk2 V c 1 t : S2000x128.Idx → EReal) (ix2 r k) = (V c main_v68 : S100000x128.Idx → EReal) (ix2 n k) := by
  obtain ⟨-, -, -, e0, e1, -⟩ := idx_facts2 t
  show V c main_v68 (((cfg2.win 1).blk t).view.emb (ix2 r k)) = _
  congr 1
  funext a; apply Fin.ext
  match a with
  | ⟨0, _⟩ => show win2_1.index t (0 : Fin 2) * 2000 + 1 * r.val = n.val; omega
  | ⟨1, _⟩ => show win2_1.index t (1 : Fin 2) * 128 + 1 * k.val = k.val; omega

theorem flushed2_eq (c : Dev nD) (t : Fin cfg2.N) :
    (Rgn.dat2 (F := Ideal) V c).flushed 7 t = ((cfg2.win 7).blk t).view.read (Elt Ideal) (G2 V c) := by
  show (cfg2.win 7).cut (grid2.coords t) ((Rgn.dat2 (F := Ideal) V c).after 7 t) = _
  rw [Rgn.after2_7]
  obtain ⟨-, -, -, -, -, e0, e1⟩ := idx_facts2 t
  have ht : t.val < 50 := lt_of_lt_of_eq t.isLt N_2
  funext j
  obtain ⟨r, d, rfl⟩ : ∃ (r : Fin 2000) (d : Fin 128), j = ix2 r d := ⟨j 0, j 1, eq_ix2 j⟩
  have hr : r.val < 2000 := r.isLt
  have hemb : ((cfg2.win 7).blk t).view.emb (ix2 r d) = (ix2 ⟨t.val * 2000 + r.val, by omega⟩ d : S100000x128.Idx) := by
    funext a; apply Fin.ext
    match a with
    | ⟨0, _⟩ => show win2_7.index t (0 : Fin 2) * 2000 + 1 * r.val = t.val * 2000 + r.val; omega
    | ⟨1, _⟩ => show win2_7.index t (1 : Fin 2) * 128 + 1 * d.val = d.val; omega
  refine (out2_7_apply (Rgn.iblk2 V c 0 t) (Rgn.iblk2 V c 1 t) (Rgn.iblk2 V c 2 t) (Rgn.iblk2 V c 3 t)
    (Rgn.iblk2 V c 4 t) (Rgn.iblk2 V c 5 t) (Rgn.iblk2 V c 6 t) r d).trans ?_
  rw [View.read_apply, iblk2_2 V c t, iblk2_3 V c t, iblk2_4 V c t, iblk2_5 V c t, iblk2_6 V c t,
    mixRow_eq_mix1 (Rgn.iblk2 V c 0 t) (Rgn.iblk2 V c 1 t) _ _ _ (fun e i => (V c main_v120 : S3x100000x128.Idx → EReal) (ix3 e (i 0) (i 1))) (V c main_v68 : S100000x128.Idx → EReal)
      ⟨t.val * 2000 + r.val, by omega⟩ r (fun e k => iblk2_0_apply V c t e r k _ rfl) (fun k => iblk2_1_apply V c t r k _ rfl)]
  show _ = G2 V c (((cfg2.win 7).blk t).view.emb (ix2 r d))
  rw [hemb]
  rfl

-- row `n` of the output lies in the block of point `n / 2000`
theorem cover2 (i : S100000x128.Idx) :
    ∃ t : Fin cfg2.N, (cfg2.win 7).flush t = true ∧ i ∈ ((cfg2.win 7).blk t).view.set := by
  have hi0 : (i 0).val < 100000 := (i 0).isLt
  have hi1 : (i 1).val < 128 := (i 1).isLt
  have hN : cfg2.N = 50 := N_2
  obtain ⟨t, htv⟩ : ∃ t : Fin cfg2.N, t.val = (i 0).val / 2000 := ⟨⟨(i 0).val / 2000, by rw [hN]; omega⟩, rfl⟩
  obtain ⟨-, -, -, -, -, e0, e1⟩ := idx_facts2 t
  refine ⟨t, flush2_7 t, ?_⟩
  show i ∈ ((View.whole main_v125).slice (win2_7.rect t)).set
  rw [View.set_slice_whole, Rect.mem_set_unit]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 128 ≤ (i 1).val ∧ (i 1).val < win2_7.index t (1 : Fin 2) * 128 + 128; omega

theorem region2_value (c : Dev nD) :
    ((Rgn.dat2 (F := Ideal) V c).arrAt 7 cfg2.N : S100000x128.Idx → EReal) =
      Cert.Spec.ln1 (fun e i => (V c main_v120 : S3x100000x128.Idx → EReal) (ix3 e (i 0) (i 1))) (V c main_v68 : S100000x128.Idx → EReal)
        (fun j => (V c main_v3 : S3x128x128.Idx → EReal) (ix3 (j 0) (j 2) (j 1))) (V c main_arg10 : S3x128.Idx → EReal)
        (fun j => (V c main_v4 : S3x128x128.Idx → EReal) (ix3 (j 0) (j 2) (j 1)))
        (fun j => (V c main_v122 : S128.Idx → EReal) (ix1 j)) (fun j => (V c main_v124 : S128.Idx → EReal) (ix1 j)) :=
  (Rgn.dat2 (F := Ideal) V c).arrAt_eq_of_cover 7 (G2 V c) (fun t _ => flushed2_eq V c t) cover2

end Cert.KernelIdeal.Val.R2

end
-- ==== Proof.KIAgg.lean ====
import proofs.«429923_j72335839199437_1_alg».proof.Proof.Gen.KernelIdeal
import Idealize.ShloMosaic.Lib.ValueIdx

noncomputable section

namespace Cert.KernelIdeal.Host

open Idealize.ShloMosaic Cert.KernelIdeal Cert.KernelIdeal.Gen

variable {F : FTy → Type} [FloatOps F]

def wrapIdx (s : IVec S600000 32) : IVec S600000x1 32 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 100000#32))) s)

def inRange (s : IVec S600000 32) : IVec S600000x128 1 :=
  broadcastInDim S600000x128 ![0] bcast_S600000_S600000x128_0
    ((fun x v => Host.reduce IntOp.andi x v reducesTo_S600000x1_S600000_d1 h_S_)
      (andi (cmpi .sge (wrapIdx s) (broadcastInDim S600000x1 ![] bcast_S_S600000x1 (constantI S_ 32 0#32)))
        (cmpi .sle (wrapIdx s) (broadcastInDim S600000x1 ![0, 1] bcast_S1x1_S600000x1_0_1
          (broadcastInDim S1x1 ![1] bcast_S1_S1x1_1 (constantI S1 32 99999#32)))))
      (constantI S_ 1 1#1))

def gatherRows (feat : FVec F S100000x128 .f32) (s : IVec S600000 32) : FVec F S600000x128 .f32 :=
  Host.gather gather_S100000x128_S600000x1_S600000x128_1_0_n_n_0_1_1128 feat (wrapIdx s)

def takeRows (feat : FVec F S100000x128 .f32) (s : IVec S600000 32) : FVec F S600000x128 .f32 :=
  select (inRange s) (gatherRows feat s)
    (broadcastInDim S600000x128 ![] bcast_S_S600000x128 (constant S_ .f32 0x7FC00000#32))

def meanInto (msg : FVec F S600000x128 .f32) (d : IVec S600000 32) : FVec F S100000x128 .f32 :=
  Host.divf
    (Host.scatterAdd scatter_S100000x128_S600000x1_S600000x128_1_0_0_1
      (broadcastInDim S100000x128 ![] bcast_S_S100000x128 (constant S_ .f32 0x00000000#32))
      (broadcastInDim S600000x1 ![0] bcast_S600000_S600000x1_0 d) msg)
    (broadcastInDim S100000x128 ![0, 1] bcast_S100000x1_S100000x128_0_1
      (maximumf
        (Host.scatterAdd scatter_S100000x1_S600000x1_S600000x1_1_0_0_1
          (broadcastInDim S100000x1 ![] bcast_S_S100000x1 (constant S_ .f32 0x00000000#32))
          (broadcastInDim S600000x1 ![0] bcast_S600000_S600000x1_0 d)
          (broadcastInDim S600000x1 ![] bcast_S_S600000x1 (constant S_ .f32 0x3F800000#32)))
        (broadcastInDim S100000x1 ![] bcast_S_S100000x1 (constant S_ .f32 0x3F800000#32))))

def aggFill (feat : FVec F S100000x128 .f32) (s d : IVec S600000 32) : FVec F S100000x128 .f32 :=
  meanInto (takeRows feat s) d

def aggBare (feat : FVec F S100000x128 .f32) (s d : IVec S600000 32) : FVec F S100000x128 .f32 :=
  meanInto (gatherRows feat s) d

def edgeSrc (E : IVec S3x2x600000 32) : Fin 3 → IVec S600000 32
  | ⟨0, _⟩ => shapeCast S600000 ((extractStridedSlice S1x1x600000 ![0, 0, 0] · slices_S3x2x600000_S1x1x600000_0_0_0) E) shapeCasts_S1x1x600000_S600000
  | ⟨1, _⟩ => shapeCast S600000 ((extractStridedSlice S1x1x600000 ![1, 0, 0] · slices_S3x2x600000_S1x1x600000_1_0_0) E) shapeCasts_S1x1x600000_S600000
  | ⟨2, _⟩ => shapeCast S600000 ((extractStridedSlice S1x1x600000 ![2, 0, 0] · slices_S3x2x600000_S1x1x600000_2_0_0) E) shapeCasts_S1x1x600000_S600000

def edgeDst (E : IVec S3x2x600000 32) : Fin 3 → IVec S600000 32
  | ⟨0, _⟩ => shapeCast S600000 ((extractStridedSlice S1x1x600000 ![0, 1, 0] · slices_S3x2x600000_S1x1x600000_0_1_0) E) shapeCasts_S1x1x600000_S600000
  | ⟨1, _⟩ => shapeCast S600000 ((extractStridedSlice S1x1x600000 ![1, 1, 0] · slices_S3x2x600000_S1x1x600000_1_1_0) E) shapeCasts_S1x1x600000_S600000
  | ⟨2, _⟩ => shapeCast S600000 ((extractStridedSlice S1x1x600000 ![2, 1, 0] · slices_S3x2x600000_S1x1x600000_2_1_0) E) shapeCasts_S1x1x600000_S600000

def SrcOk (s : IVec S600000 32) : Prop := ∀ j : S600000.Idx, -100000 ≤ (s j).toInt ∧ (s j).toInt < 100000

end Cert.KernelIdeal.Host

end
-- ==== Proof.KIHost1.lean ====
import proofs.«429923_j72335839199437_1_alg».proof.Proof.Gen.KernelIdeal.Launch
import proofs.«429923_j72335839199437_1_alg».proof.Proof.Gen.KernelIdeal.Regions
import proofs.«429923_j72335839199437_1_alg».proof.Proof.KIAgg
import Idealize.ShloMosaic.Lib.Pipeline.Regions
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

set_option maxRecDepth 1808

noncomputable section

namespace Cert.KernelIdeal.Host

open Idealize.ShloMosaic Idealize.ShloMosaic.ValueIdx Idealize.ShloMosaic.StableHlo Idealize.ShloMosaic.TcCoe
open Cert.KernelIdeal Cert.KernelIdeal.Gen

variable {α : Type}

-- every matrix of the stack transposed
def tr (W : S3x128x128.Idx → α) : S3x128x128.Idx → α := fun j => W (ix3 (j 0) (j 2) (j 1))

theorem tr_tr (W : S3x128x128.Idx → α) : tr (tr W) = W := funext fun j => congrArg W (eq_ix3 j).symm

theorem tr_of_eq_tr {T W : S3x128x128.Idx → α} (h : T = tr W) : tr T = W := h ▸ tr_tr W

theorem transpose_eq_tr (W : S3x128x128.Idx → α) :
    transpose S3x128x128 [0, 2, 1] W transposes_S3x128x128_S3x128x128_0_2_1 = tr W :=
  funext fun j => (congrArg _ (eq_ix3 j)).trans (transpose_ix3_021_apply W _ (j 0) (j 1) (j 2))

theorem row_apply (r : ℕ) (T : S2x128.Idx → α) (h : S2x128.Slices ![r, 0] S1x128) (j : S128.Idx) (k : Fin 2) (hk : k.val = r) :
    shapeCast S128 (extractStridedSlice S1x128 ![r, 0] T h) shapeCasts_S1x128_S128 j = T (ix2 k (j 0)) :=
  (congrArg _ (eq_ix1 j)).trans ((shapeCast_1a_a_apply _ _ _).trans (slice2_axis0_apply r T h 0 _ k hk))

def slab (X : S3x100000x128.Idx → α) : Fin 3 → S100000x128.Idx → α
  | ⟨0, _⟩ => shapeCast S100000x128 (extractStridedSlice S1x100000x128 ![0, 0, 0] X slices_S3x100000x128_S1x100000x128_0_0_0) shapeCasts_S1x100000x128_S100000x128
  | ⟨1, _⟩ => shapeCast S100000x128 (extractStridedSlice S1x100000x128 ![1, 0, 0] X slices_S3x100000x128_S1x100000x128_1_0_0) shapeCasts_S1x100000x128_S100000x128
  | ⟨2, _⟩ => shapeCast S100000x128 (extractStridedSlice S1x100000x128 ![2, 0, 0] X slices_S3x100000x128_S1x100000x128_2_0_0) shapeCasts_S1x100000x128_S100000x128

theorem slab_apply (X : S3x100000x128.Idx → α) (e : Fin 3) (i : S100000x128.Idx) : slab X e i = X (ix3 e (i 0) (i 1)) := by
  refine (congrArg (slab X e) (eq_ix2 i)).trans ?_
  match e with
  | ⟨0, _⟩ | ⟨1, _⟩ | ⟨2, _⟩ =>
    exact (shapeCast_1ab_ab_apply _ _ _ _).trans (extractStridedSlice_apply _ _ _ _ _ fun a => match a with
      | ⟨0, _⟩ => rfl | ⟨1, _⟩ => (Nat.zero_add _).symm | ⟨2, _⟩ => (Nat.zero_add _).symm)

abbrev lead (a : S100000x128.Idx → α) : S1x100000x128.Idx → α :=
  broadcastInDim S1x100000x128 ![1, 2] bcast_S100000x128_S1x100000x128_1_2 a

def stackL (A B C : S1x100000x128.Idx → α) : S3x100000x128.Idx → α :=
  concatenate S3x100000x128 0 [⟨S1x100000x128, A⟩, ⟨S1x100000x128, B⟩, ⟨S1x100000x128, C⟩]
    concatenates_S1x100000x128_S1x100000x128_S1x100000x128_S3x100000x128_d0

abbrev stack3 (a0 a1 a2 : S100000x128.Idx → α) : S3x100000x128.Idx → α := stackL (lead a0) (lead a1) (lead a2)

theorem stack3_apply (a : Fin 3 → S100000x128.Idx → α) (i : S3x100000x128.Idx) :
    stack3 (a 0) (a 1) (a 2) i = a (i 0) (ix2 (i 1) (i 2)) := by
  refine Eq.trans ?_ ((concatenate_ofFn_unit_apply (t := S3x100000x128) (s₁ := S1x100000x128) 0 (fun e : Fin 3 => lead (a e))
    concatenates_S1x100000x128_S1x100000x128_S1x100000x128_S3x100000x128_d0 rfl rfl i (i 0) rfl
    (ix3 (0 : Fin 1) (i 1) (i 2)) fun b hb => by fin_cases b; exacts [absurd rfl hb, rfl, rfl]).trans
    (broadcastInDim_apply _ _ _ _ _ fun b => by fin_cases b <;> rfl))
  rfl

-- the three edge types' aggregations of the tables `t e`, stacked along a new leading axis
def aggStack (t : Fin 3 → S100000x128.Idx → EReal) (E : IVec S3x2x600000 32) : S3x100000x128.Idx → EReal :=
  stack3 (aggFill (F := Ideal) (t 0) (edgeSrc E 0) (edgeDst E 0)) (aggFill (F := Ideal) (t 1) (edgeSrc E 1) (edgeDst E 1))
    (aggFill (F := Ideal) (t 2) (edgeSrc E 2) (edgeDst E 2))

theorem aggStack_apply (t : Fin 3 → S100000x128.Idx → EReal) (E : IVec S3x2x600000 32) (e : Fin 3) (i : S100000x128.Idx) :
    aggStack t E (ix3 e (i 0) (i 1)) = aggFill (F := Ideal) (t e) (edgeSrc E e) (edgeDst E e) i :=
  (stack3_apply (fun e => aggFill (F := Ideal) (t e) (edgeSrc E e) (edgeDst E e)) _).trans (congrArg _ (eq_ix2 i).symm)

theorem ofBuf_toBuf {Val : EltTy → Type} {T : BufTy} (x : TRef sig T) (v : T.Contents Val) : x.ofBuf (x.toBuf v) = v := by
  obtain ⟨r, h, h1, h2⟩ := x
  subst h
  rfl

-- operations leave a buffer they do not write as they found it
theorem keep {ops : List (HloOp τ sig (Elt Ideal))} {W W' : List (Ref sig .tc)}
    (hW : ops.Forall fun op => op.writes ⊆ (W.map (Proc.devRef (τ := τ) .tc)).toFinset)
    {V V' : Valuation τ sig (Elt Ideal)} {r : Ref sig .tc} (h : r ∉ W' ++ W) (hV : r ∉ W' → V r = V' r) :
    after ops V r = V' r :=
  (after_of_writes_sub ops V hW fun hr => h (List.mem_append_right _ hr)).trans (hV fun hr => h (List.mem_append_left _ hr))

variable (U : Valuation τ sig (Elt Ideal))

theorem transposed :
    (after hostOps0 U main_v0 : S3x128x128.Idx → EReal) = tr (U main_arg4 : S3x128x128.Idx → EReal)
    ∧ (after hostOps0 U main_v1 : S3x128x128.Idx → EReal) = tr (U main_arg6 : S3x128x128.Idx → EReal)
    ∧ (after hostOps0 U main_v2 : S3x128x128.Idx → EReal) = tr (U main_arg8 : S3x128x128.Idx → EReal)
    ∧ (after hostOps0 U main_v3 : S3x128x128.Idx → EReal) = tr (U main_arg9 : S3x128x128.Idx → EReal)
    ∧ (after hostOps0 U main_v4 : S3x128x128.Idx → EReal) = tr (U main_arg11 : S3x128x128.Idx → EReal) := by
  simp only [hostOps0]
  refine ⟨?_, ?_, ?_, ?_, ?_⟩ <;> after_results <;> exact transpose_eq_tr _

abbrev stretch1 : Valuation τ sig (Elt Ideal) :=
  after hostOps1_6 (after hostOps1_5 (after hostOps1_4 (after hostOps1_3 (after hostOps1_2 (after hostOps1_1 (after hostOps1 U))))))

abbrev W1s : List (Ref sig .tc) :=
  hostOps1_W ++ hostOps1_1_W ++ hostOps1_2_W ++ hostOps1_3_W ++ hostOps1_4_W ++ hostOps1_5_W ++ hostOps1_6_W

theorem stretch1_of (r : Ref sig .tc) (h : r ∉ W1s) : stretch1 U r = U r :=
  keep hostOps1_6_writes h fun h => keep hostOps1_5_writes h fun h => keep hostOps1_4_writes h fun h =>
    keep hostOps1_3_writes h fun h => keep hostOps1_2_writes h fun h => keep hostOps1_1_writes h fun h =>
      after_of_writes_sub _ _ hostOps1_writes h

abbrev fst1 : Valuation τ sig (Elt Ideal) := after hostOps1_3 (after hostOps1_2 (after hostOps1_1 (after hostOps1 U)))
abbrev mid1 : Valuation τ sig (Elt Ideal) := after hostOps1_5 (after hostOps1_4 U)

-- after four stretches: edge type 0 aggregated, edge type 1's source rows taken
theorem first1 :
    (fst1 U main_v23 : S100000x128.Idx → EReal)
      = aggFill (F := Ideal) (slab (U main_v5 : S3x100000x128.Idx → EReal) 0) (edgeSrc (U main_arg1) 0) (edgeDst (U main_arg1) 0)
    ∧ (fst1 U main_v30 : S600000x128.Idx → EReal) = takeRows (F := Ideal) (slab (U main_v5 : S3x100000x128.Idx → EReal) 1) (edgeSrc (U main_arg1) 1)
    ∧ (fst1 U main_v27 : S600000.Idx → BitVec 32) = edgeDst (U main_arg1) 1
    ∧ fst1 U main_v5 = U main_v5 ∧ fst1 U main_arg1 = U main_arg1 := by
  simp only [fst1, hostOps1, hostOps1_1, hostOps1_2, hostOps1_3]
  refine ⟨?_, ?_, ?_, ?_, ?_⟩ <;> after_results_simp
  · simp only [ofBuf_toBuf]; simp only [TRef.ofBuf, TRef.toBuf, cast_eq]; rfl
  · simp only [ofBuf_toBuf]; simp only [TRef.ofBuf, TRef.toBuf, cast_eq]; rfl
  · rfl

-- two stretches on: edge type 1 aggregated, edge type 2's source rows taken
theorem middle1 :
    (mid1 U main_v48 : S600000x128.Idx → EReal) = takeRows (F := Ideal) (slab (U main_v5 : S3x100000x128.Idx → EReal) 2) (edgeSrc (U main_arg1) 2)
    ∧ (mid1 U main_v45 : S600000.Idx → BitVec 32) = edgeDst (U main_arg1) 2
    ∧ (mid1 U main_v41 : S100000x128.Idx → EReal) = meanInto (F := Ideal) (U main_v30) (U main_v27)
    ∧ mid1 U main_v23 = U main_v23 := by
  simp only [mid1, hostOps1_4, hostOps1_5]
  refine ⟨?_, ?_, ?_, ?_⟩ <;> after_results_simp
  · simp only [ofBuf_toBuf]; simp only [TRef.ofBuf, TRef.toBuf, cast_eq]; rfl
  · rfl
  · rfl

theorem stack_result1 (F : Valuation τ sig (Elt Ideal)) :
    (nary ![main_v60, main_v61, main_v62] main_v63
        (fun u => concatenate S3x100000x128 0 [⟨S1x100000x128, u 0⟩, ⟨S1x100000x128, u 1⟩, ⟨S1x100000x128, u 2⟩]
          concatenates_S1x100000x128_S1x100000x128_S1x100000x128_S3x100000x128_d0)
        : HloOp τ sig (Elt Ideal)).result F (no_index (Proc.devRef .tc main_v63))
      = stackL (F main_v60 : S1x100000x128.Idx → EReal) (F main_v61 : S1x100000x128.Idx → EReal) (F main_v62 : S1x100000x128.Idx → EReal) := by
  rw [nary_result]; rfl

-- the last stretch aggregates edge type 2 and stacks the three tables
theorem last1 : (after hostOps1_6 U main_v63 : S3x100000x128.Idx → EReal)
    = stack3 (U main_v23) (U main_v41) (meanInto (F := Ideal) (U main_v48) (U main_v45)) := by
  simp only [hostOps1_6]
  simp (disch := decide) only [after_cons, after_nil, reshape_result_ne', unary_result_ne', stack_result1]
  after_results_simp
  rfl

theorem stacked1 : (stretch1 U main_v63 : S3x100000x128.Idx → EReal) = aggStack (slab (U main_v5 : S3x100000x128.Idx → EReal)) (U main_arg1) := by
  obtain ⟨h0, ht1, hd1, hf, hE⟩ := first1 U
  obtain ⟨ht2, hd2, h1, h0'⟩ := middle1 (fst1 U)
  refine (last1 (mid1 (fst1 U))).trans ?_
  rw [ht2, hd2, h1, h0', h0, ht1, hd1, hf, hE]
  rfl

theorem rows1 : (stretch1 U main_v65 : S128.Idx → EReal) = (fun j : S128.Idx => (U main_arg12 : S2x128.Idx → EReal) (ix2 0 (j 0)))
    ∧ (stretch1 U main_v67 : S128.Idx → EReal) = fun j : S128.Idx => (U main_arg13 : S2x128.Idx → EReal) (ix2 0 (j 0)) := by
  simp only [stretch1, hostOps1, hostOps1_1, hostOps1_2, hostOps1_3, hostOps1_4, hostOps1_5, hostOps1_6]
  refine ⟨?_, ?_⟩ <;> after_results_simp <;> exact funext fun j => row_apply 0 _ _ j 0 rfl

end Cert.KernelIdeal.Host

end
-- ==== Proof.KIHost2.lean ====
import proofs.«429923_j72335839199437_1_alg».proof.Proof.KIHost1

set_option maxRecDepth 1808

noncomputable section

namespace Cert.KernelIdeal.Host

open Idealize.ShloMosaic Idealize.ShloMosaic.ValueIdx Idealize.ShloMosaic.StableHlo Idealize.ShloMosaic.TcCoe
open Cert.KernelIdeal Cert.KernelIdeal.Gen

variable (U : Valuation τ sig (Elt Ideal))

abbrev stretch2 : Valuation τ sig (Elt Ideal) :=
  after hostOps2_6 (after hostOps2_5 (after hostOps2_4 (after hostOps2_3 (after hostOps2_2 (after hostOps2_1 (after hostOps2 U))))))

abbrev W2s : List (Ref sig .tc) :=
  hostOps2_W ++ hostOps2_1_W ++ hostOps2_2_W ++ hostOps2_3_W ++ hostOps2_4_W ++ hostOps2_5_W ++ hostOps2_6_W

theorem stretch2_of (r : Ref sig .tc) (h : r ∉ W2s) : stretch2 U r = U r :=
  keep hostOps2_6_writes h fun h => keep hostOps2_5_writes h fun h => keep hostOps2_4_writes h fun h =>
    keep hostOps2_3_writes h fun h => keep hostOps2_2_writes h fun h => keep hostOps2_1_writes h fun h =>
      after_of_writes_sub _ _ hostOps2_writes h

abbrev fst2 : Valuation τ sig (Elt Ideal) := after hostOps2_3 (after hostOps2_2 (after hostOps2_1 (after hostOps2 U)))
abbrev mid2 : Valuation τ sig (Elt Ideal) := after hostOps2_5 (after hostOps2_4 U)

-- after four stretches: edge type 0 aggregated, edge type 1's source rows taken
theorem first2 :
    (fst2 U main_v84 : S100000x128.Idx → EReal)
      = aggFill (F := Ideal) (U main_v68 : S100000x128.Idx → EReal) (edgeSrc (U main_arg1) 0) (edgeDst (U main_arg1) 0)
    ∧ (fst2 U main_v89 : S600000x128.Idx → EReal) = takeRows (F := Ideal) (U main_v68 : S100000x128.Idx → EReal) (edgeSrc (U main_arg1) 1)
    ∧ (fst2 U main_v88 : S600000.Idx → BitVec 32) = edgeDst (U main_arg1) 1
    ∧ fst2 U main_v68 = U main_v68 ∧ fst2 U main_arg1 = U main_arg1 := by
  simp only [fst2, hostOps2, hostOps2_1, hostOps2_2, hostOps2_3]
  refine ⟨?_, ?_, ?_, ?_, ?_⟩ <;> after_results_simp
  · simp only [ofBuf_toBuf]; simp only [TRef.ofBuf, TRef.toBuf, cast_eq]; rfl
  · simp only [ofBuf_toBuf]; simp only [TRef.ofBuf, TRef.toBuf, cast_eq]; rfl
  · rfl

-- two stretches on: edge type 1 aggregated, edge type 2's source rows taken
theorem middle2 :
    (mid2 U main_v105 : S600000x128.Idx → EReal) = takeRows (F := Ideal) (U main_v68 : S100000x128.Idx → EReal) (edgeSrc (U main_arg1) 2)
    ∧ (mid2 U main_v104 : S600000.Idx → BitVec 32) = edgeDst (U main_arg1) 2
    ∧ (mid2 U main_v100 : S100000x128.Idx → EReal) = meanInto (F := Ideal) (U main_v89) (U main_v88)
    ∧ mid2 U main_v84 = U main_v84 := by
  simp only [mid2, hostOps2_4, hostOps2_5]
  refine ⟨?_, ?_, ?_, ?_⟩ <;> after_results_simp
  · simp only [ofBuf_toBuf]; simp only [TRef.ofBuf, TRef.toBuf, cast_eq]; rfl
  · rfl
  · rfl

theorem stack_result2 (F : Valuation τ sig (Elt Ideal)) :
    (nary ![main_v117, main_v118, main_v119] main_v120
        (fun u => concatenate S3x100000x128 0 [⟨S1x100000x128, u 0⟩, ⟨S1x100000x128, u 1⟩, ⟨S1x100000x128, u 2⟩]
          concatenates_S1x100000x128_S1x100000x128_S1x100000x128_S3x100000x128_d0)
        : HloOp τ sig (Elt Ideal)).result F (no_index (Proc.devRef .tc main_v120))
      = stackL (F main_v117 : S1x100000x128.Idx → EReal) (F main_v118 : S1x100000x128.Idx → EReal) (F main_v119 : S1x100000x128.Idx → EReal) := by
  rw [nary_result]; rfl

-- the last stretch aggregates edge type 2 and stacks the three tables
theorem last2 : (after hostOps2_6 U main_v120 : S3x100000x128.Idx → EReal)
    = stack3 (U main_v84) (U main_v100) (meanInto (F := Ideal) (U main_v105) (U main_v104)) := by
  simp only [hostOps2_6]
  simp (disch := decide) only [after_cons, after_nil, reshape_result_ne', unary_result_ne', stack_result2]
  after_results_simp
  rfl

theorem stacked2 : (stretch2 U main_v120 : S3x100000x128.Idx → EReal) = aggStack (fun _ => (U main_v68 : S100000x128.Idx → EReal)) (U main_arg1) := by
  obtain ⟨h0, ht1, hd1, hf, hE⟩ := first2 U
  obtain ⟨ht2, hd2, h1, h0'⟩ := middle2 (fst2 U)
  refine (last2 (mid2 (fst2 U))).trans ?_
  rw [ht2, hd2, h1, h0', h0, ht1, hd1, hf, hE]
  rfl

theorem rows2 : (stretch2 U main_v122 : S128.Idx → EReal) = (fun j : S128.Idx => (U main_arg12 : S2x128.Idx → EReal) (ix2 1 (j 0)))
    ∧ (stretch2 U main_v124 : S128.Idx → EReal) = fun j : S128.Idx => (U main_arg13 : S2x128.Idx → EReal) (ix2 1 (j 0)) := by
  simp only [stretch2, hostOps2, hostOps2_1, hostOps2_2, hostOps2_3, hostOps2_4, hostOps2_5, hostOps2_6]
  refine ⟨?_, ?_⟩ <;> after_results_simp <;> exact funext fun j => row_apply 1 _ _ j 1 rfl

end Cert.KernelIdeal.Host

end
-- ==== Proof.KITake.lean ====
import proofs.«429923_j72335839199437_1_alg».proof.Proof.KIAgg
import proofs.«429923_j72335839199437_1_alg».proof.Defs
import proofs.«429923_j72335839199437_1_alg».proof.Proof.Gen.Pre_finite_inputs
import Idealize.ShloMosaic.Lib.ReduceAll
import Idealize.ShloMosaic.Lib.WordArith

noncomputable section

namespace Cert.KernelIdeal.Host

open Idealize.ShloMosaic Cert.KernelIdeal Cert.KernelIdeal.Gen

theorem foldl_andi_one {ι : Type} (f : ι → BitVec 1) (hf : ∀ n, f n = 1#1) :
    ∀ (l : List ι), l.foldl (fun r n => IntOp.andi r (f n)) 1#1 = 1#1
  | [] => rfl
  | a :: l => by
    rw [List.foldl_cons, hf a, show IntOp.andi 1#1 1#1 = 1#1 from by decide]
    exact foldl_andi_one f hf l

theorem reduce_andi_of_all {s t u : Shape} {axes : List (Fin s.rank)} (x : s.Idx → BitVec 1) (init : u.Idx → BitVec 1)
    (h : s.ReducesTo axes t) (hu : 0 < u.numel) (hi : init (Shape.Idx.first hu) = 1#1) (hx : ∀ i, x i = 1#1) (j : t.Idx) :
    Host.reduce IntOp.andi x init h hu j = 1#1 := by
  rw [Host.reduce_eq_foldl, hi]; exact foldl_andi_one x hx _

-- The sum does not overflow, so it is the integers' sum and lands in [0, 99999].
theorem wrap_scalar (x : BitVec 32) (h1 : -100000 ≤ x.toInt) (h2 : x.toInt < 100000) :
    IntOp.cmpi .sge (Scalar.select (IntOp.cmpi .slt x 0#32) (IntOp.addi x 100000#32) x) 0#32 = 1#1
    ∧ IntOp.cmpi .sle (Scalar.select (IntOp.cmpi .slt x 0#32) (IntOp.addi x 100000#32) x) 99999#32 = 1#1 := by
  have hc : IntOp.cmpi .slt x 0#32 = 1 ↔ x.toInt < 0 := IntOp.cmpi_slt
  have hk : (100000#32).toInt = 100000 := by decide
  rw [IntOp.cmpi_sge, IntOp.cmpi_sle, show (0#32).toInt = 0 from rfl, show (99999#32).toInt = 99999 from by decide]
  unfold Scalar.select IntOp.addi
  by_cases hneg : x.toInt < 0
  · rw [if_pos (hc.2 hneg), WordArith.toInt_add_of_bounds x _ (by rw [hk]; omega) (by rw [hk]; omega), hk]; omega
  · rw [if_neg (mt hc.1 hneg)]; omega

theorem inRange_eq_one (s : IVec S600000 32) (h : SrcOk s) (i : S600000x128.Idx) : inRange s i = 1#1 := by
  unfold inRange broadcastInDim
  apply reduce_andi_of_all
  · rfl
  · intro i'
    exact IntOp.andi_eq_one.2 (wrap_scalar (s _) (h _).1 (h _).2)

theorem aggFill_eq_aggBare {F : FTy → Type} [FloatOps F] (feat : FVec F S100000x128 .f32) (s d : IVec S600000 32)
    (h : SrcOk s) : aggFill feat s d = aggBare feat s d := by
  have : takeRows feat s = gatherRows feat s := funext fun i => by
    unfold takeRows select Scalar.select
    rw [inRange_eq_one s h i]
    exact if_pos rfl
  unfold aggFill aggBare; rw [this]

instance : Subsingleton S_.Idx := ⟨fun a b => funext fun d => d.elim0⟩

theorem srcOk_of_all (s : IVec S600000 32) (hb : S_.BroadcastsInDim S600000 (![] : Fin 0 → Fin S600000.rank))
    (hr : S600000.ReducesTo [0] S_) (hu : 0 < S_.numel)
    (h : Host.reduce IntOp.andi
        (andi (cmpi .sge s (broadcastInDim S600000 ![] hb (constantI S_ 32 4294867296#32)))
          (cmpi .slt s (broadcastInDim S600000 ![] hb (constantI S_ 32 100000#32))))
        (constantI S_ 1 1#1) hr hu ValueIdx.ix0 = 1#1) : SrcOk s := fun j => by
  obtain ⟨hge, hlt⟩ := IntOp.andi_eq_one.1 (Host.reduce_andi_all _ _ hr hu ValueIdx.ix0 h j)
  have hge' : IntOp.cmpi .sge (s j) 4294867296#32 = 1#1 := hge
  have hlt' : IntOp.cmpi .slt (s j) 100000#32 = 1#1 := hlt
  rw [IntOp.cmpi_sge, show (4294867296#32).toInt = -100000 from by decide] at hge'
  rw [IntOp.cmpi_slt, show (100000#32).toInt = 100000 from by decide] at hlt'
  exact ⟨hge', hlt'⟩

theorem srcOk_of_pre (m : (ℓ : Loc nD τ sig) → Buf (Elt Ideal) ℓ) (hpre : Cert.Pre_KernelIdeal m) (c : Dev nD) (e : Fin 3) :
    SrcOk (edgeSrc (m ((c.tc : Thread nD τ).loc main_arg1)) e) := by
  have h0 := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  obtain ⟨h012, h2⟩ := IntOp.andi_eq_one.1 h0
  obtain ⟨h01, h1⟩ := IntOp.andi_eq_one.1 h012
  obtain ⟨-, h0'⟩ := IntOp.andi_eq_one.1 h01
  clear h0 h012 h01
  match e with
  | ⟨0, _⟩ => exact srcOk_of_all _ _ _ _ h0'
  | ⟨1, _⟩ => exact srcOk_of_all _ _ _ _ h1
  | ⟨2, _⟩ => exact srcOk_of_all _ _ _ _ h2

end Cert.KernelIdeal.Host

end
-- ==== Proof.KIResult.lean ====
import proofs.«429923_j72335839199437_1_alg».proof.Proof.KIRun
import proofs.«429923_j72335839199437_1_alg».proof.Proof.KIValue0
import proofs.«429923_j72335839199437_1_alg».proof.Proof.KIValue1
import proofs.«429923_j72335839199437_1_alg».proof.Proof.KIValue2
import proofs.«429923_j72335839199437_1_alg».proof.Proof.KIHost1
import proofs.«429923_j72335839199437_1_alg».proof.Proof.KIHost2
import proofs.«429923_j72335839199437_1_alg».proof.Proof.KITake
import proofs.«429923_j72335839199437_1_alg».proof.Proof.Spec

noncomputable section

namespace Cert.KernelIdeal.Val.Asm

open Idealize.ShloMosaic Idealize.ShloMosaic.ValueIdx Idealize.ShloMosaic.TcCoe Cert.KernelIdeal Cert.KernelIdeal.Gen
open Idealize.ShloMosaic.Pipeline (Dat)

variable (m : (ℓ : Loc nD τ sig) → Buf (Elt Ideal) ℓ) (c : Dev nD)

abbrev argX : Cert.Spec.Tab := m ((c.tc : Thread nD τ).loc main_arg0)
abbrev argPW : Cert.Spec.Wts.Idx → EReal := m ((c.tc : Thread nD τ).loc main_arg4)
abbrev argPB : Cert.Spec.Bias.Idx → EReal := m ((c.tc : Thread nD τ).loc main_arg5)
abbrev argL0Wl : Cert.Spec.Wts.Idx → EReal := m ((c.tc : Thread nD τ).loc main_arg6)
abbrev argL0bl : Cert.Spec.Bias.Idx → EReal := m ((c.tc : Thread nD τ).loc main_arg7)
abbrev argL0Wr : Cert.Spec.Wts.Idx → EReal := m ((c.tc : Thread nD τ).loc main_arg8)
abbrev argL1Wl : Cert.Spec.Wts.Idx → EReal := m ((c.tc : Thread nD τ).loc main_arg9)
abbrev argL1bl : Cert.Spec.Bias.Idx → EReal := m ((c.tc : Thread nD τ).loc main_arg10)
abbrev argL1Wr : Cert.Spec.Wts.Idx → EReal := m ((c.tc : Thread nD τ).loc main_arg11)
abbrev argG : Cert.Spec.Norms.Idx → EReal := m ((c.tc : Thread nD τ).loc main_arg12)
abbrev argB : Cert.Spec.Norms.Idx → EReal := m ((c.tc : Thread nD τ).loc main_arg13)

def agK (e : Fin 3) (t : Cert.Spec.Tab) : Cert.Spec.Tab :=
  Host.aggFill (F := Ideal) t (Host.edgeSrc (m ((c.tc : Thread nD τ).loc main_arg1)) e) (Host.edgeDst (m ((c.tc : Thread nD τ).loc main_arg1)) e)

def agB (e : Fin 3) (t : Cert.Spec.Tab) : Cert.Spec.Tab :=
  Host.aggBare (F := Ideal) t (Host.edgeSrc (m ((c.tc : Thread nD τ).loc main_arg1)) e) (Host.edgeDst (m ((c.tc : Thread nD τ).loc main_arg1)) e)

abbrev hid : Cert.Spec.Tab :=
  Cert.Spec.hidden (agK m c) (argX m c) (argPW m c) (argPB m c) (argL0Wl m c) (argL0bl m c) (argL0Wr m c) (argG m c) (argB m c)

theorem U2_v5 : RunH.U2 m c main_v5 = RunH.o2 m c := by
  show Function.update (V1 m c) main_v5 (RunH.o2 m c) main_v5 = _
  exact Function.update_self _ _ _

theorem U10_v68 : RunH.U10 m c main_v68 = RunH.o10 m c := by
  show Function.update (RunH.U9 m c) main_v68 (RunH.o10 m c) main_v68 = _
  exact Function.update_self _ _ _

-- A buffer that only the transposes may write holds, at every later point between regions, what they left.
theorem kept (r : Ref sig .tc) (h5 : r ∉ ([main_v5] : List (Ref sig .tc)) := by decide) (h1 : r ∉ Host.W1s := by decide)
    (h68 : r ∉ ([main_v68] : List (Ref sig .tc)) := by decide) (h2 : r ∉ Host.W2s := by decide) :
    RunH.U2 m c r = V1 m c r ∧ RunH.U9 m c r = V1 m c r ∧ RunH.U10 m c r = V1 m c r ∧ RunH.U17 m c r = V1 m c r :=
  have a : RunH.U2 m c r = V1 m c r :=
    Function.update_of_ne (StableHlo.devRef_ne_of_ne (List.ne_of_not_mem_cons h5)) _ _
  have b : RunH.U9 m c r = V1 m c r := (Host.stretch1_of _ r h1).trans a
  have d : RunH.U10 m c r = V1 m c r :=
    (Function.update_of_ne (StableHlo.devRef_ne_of_ne (List.ne_of_not_mem_cons h68)) _ _).trans b
  ⟨a, b, d, (Host.stretch2_of _ r h2).trans d⟩

theorem V1_arg (r : Ref sig .tc) (h : r ∉ hostOps0_W := by decide) : V1 m c r = m ((c.tc : Thread nD τ).loc r) :=
  V1_of m c r h

theorem proj_value : (RunH.o2 (F := Ideal) m c : S3x100000x128.Idx → EReal)
    = fun i => Cert.Spec.proj (argX m c) (argPW m c) (argPB m c) (i 0) (ix2 (i 1) (i 2)) := by
  unfold RunH.o2
  refine (R0.region0_value (RunH.ent0 m) c).trans ?_
  funext i
  exact congrFun (congrFun (congr (congr (congrArg Cert.Spec.proj (V1_arg m c main_arg0))
    (Host.tr_of_eq_tr (Host.transposed (V0 m c)).1)) (V1_arg m c main_arg5)) _) _

theorem U2_slab (e : Fin 3) :
    Host.slab (RunH.U2 m c main_v5 : S3x100000x128.Idx → EReal) e = Cert.Spec.proj (argX m c) (argPW m c) (argPB m c) e :=
  funext fun i => (Host.slab_apply _ e i).trans ((congrFun ((U2_v5 m c).trans (proj_value m c)) _).trans
    (congrArg (Cert.Spec.proj (argX m c) (argPW m c) (argPB m c) e) (eq_ix2 i).symm))

theorem ent1_agg :
    (fun (e : Fin 3) (i : Cert.Spec.Rows.Idx) => (RunH.ent1 m c main_v63 : S3x100000x128.Idx → EReal) (ix3 e (i 0) (i 1)))
      = fun e => agK m c e (Cert.Spec.proj (argX m c) (argPW m c) (argPB m c) e) := by
  funext e i
  refine (congrFun (Host.stacked1 (RunH.U2 m c)) _).trans ((Host.aggStack_apply _ _ e i).trans ?_)
  rw [U2_slab m c e, (kept m c main_arg1).1.trans (V1_arg m c main_arg1)]
  rfl

theorem hidden_value : (RunH.o10 (F := Ideal) m c : S100000x128.Idx → EReal) = hid m c := by
  unfold RunH.o10
  refine (R1.region1_value (RunH.ent1 m) c).trans ?_
  unfold hid Cert.Spec.hidden Cert.Spec.layer0
  exact congr (congr (congr (congr (congr (congr (congrArg Cert.Spec.ln0 (ent1_agg m c))
    ((kept m c main_arg0).2.1.trans (V1_arg m c main_arg0)))
    (Host.tr_of_eq_tr ((kept m c main_v1).2.1.trans (Host.transposed (V0 m c)).2.1)))
    ((kept m c main_arg7).2.1.trans (V1_arg m c main_arg7)))
    (Host.tr_of_eq_tr ((kept m c main_v2).2.1.trans (Host.transposed (V0 m c)).2.2.1)))
    (funext fun j => (congrFun (Host.rows1 (RunH.U2 m c)).1 (ix1 j)).trans
      (congrFun ((kept m c main_arg12).1.trans (V1_arg m c main_arg12)) (ix2 0 j))))
    (funext fun j => (congrFun (Host.rows1 (RunH.U2 m c)).2 (ix1 j)).trans
      (congrFun ((kept m c main_arg13).1.trans (V1_arg m c main_arg13)) (ix2 0 j)))

theorem ent2_hidden : (RunH.ent2 m c main_v68 : S100000x128.Idx → EReal) = hid m c :=
  (Host.stretch2_of _ main_v68 (by decide)).trans ((U10_v68 m c).trans (hidden_value m c))

theorem ent2_agg :
    (fun (e : Fin 3) (i : Cert.Spec.Rows.Idx) => (RunH.ent2 m c main_v120 : S3x100000x128.Idx → EReal) (ix3 e (i 0) (i 1)))
      = fun e => agK m c e (hid m c) := by
  funext e i
  refine (congrFun (Host.stacked2 (RunH.U10 m c)) _).trans ((Host.aggStack_apply _ _ e i).trans ?_)
  rw [(U10_v68 m c).trans (hidden_value m c), (kept m c main_arg1).2.2.1.trans (V1_arg m c main_arg1)]
  rfl

theorem result_value : (RunH.o18 (F := Ideal) m c : S100000x128.Idx → EReal)
    = Cert.Spec.result (agK m c) (argX m c) (argPW m c) (argPB m c) (argL0Wl m c) (argL0bl m c) (argL0Wr m c)
        (argL1Wl m c) (argL1bl m c) (argL1Wr m c) (argG m c) (argB m c) := by
  unfold RunH.o18
  refine (R2.region2_value (RunH.ent2 m) c).trans ?_
  unfold Cert.Spec.result Cert.Spec.layer1
  exact congr (congr (congr (congr (congr (congr (congrArg Cert.Spec.ln1 (ent2_agg m c)) (ent2_hidden m c))
    (Host.tr_of_eq_tr ((kept m c main_v3).2.2.2.trans (Host.transposed (V0 m c)).2.2.2.1)))
    ((kept m c main_arg10).2.2.2.trans (V1_arg m c main_arg10)))
    (Host.tr_of_eq_tr ((kept m c main_v4).2.2.2.trans (Host.transposed (V0 m c)).2.2.2.2)))
    (funext fun j => (congrFun (Host.rows2 (RunH.U10 m c)).1 (ix1 j)).trans
      (congrFun ((kept m c main_arg12).2.2.1.trans (V1_arg m c main_arg12)) (ix2 1 j))))
    (funext fun j => (congrFun (Host.rows2 (RunH.U10 m c)).2 (ix1 j)).trans
      (congrFun ((kept m c main_arg13).2.2.1.trans (V1_arg m c main_arg13)) (ix2 1 j)))

theorem agK_eq_agB (hpre : Cert.Pre_KernelIdeal m) : agK m c = agB m c := by
  funext e t
  unfold agK agB
  exact Host.aggFill_eq_aggBare (F := Ideal) t _ _ (Host.srcOk_of_pre m hpre c e)

theorem result_value_bare (hpre : Cert.Pre_KernelIdeal m) : (RunH.o18 (F := Ideal) m c : S100000x128.Idx → EReal)
    = Cert.Spec.result (agB m c) (argX m c) (argPW m c) (argPB m c) (argL0Wl m c) (argL0bl m c) (argL0Wr m c)
        (argL1Wl m c) (argL1bl m c) (argL1Wr m c) (argG m c) (argB m c) := by
  rw [← agK_eq_agB m c hpre]; exact result_value m c

end Cert.KernelIdeal.Val.Asm

end
-- ==== Proof.RefSpec0.lean ====
import proofs.«429923_j72335839199437_1_alg».proof.Proof.RefRead
import proofs.«429923_j72335839199437_1_alg».proof.Proof.Spec
import proofs.«429923_j72335839199437_1_alg».proof.Proof.KIAgg
import Idealize.ShloMosaic.Lib.ValueLayout
import Idealize.ShloMosaic.Lib.IdealHost

noncomputable section

open scoped BigOperators

namespace Cert.ReferenceIdeal.SpecR

open Idealize.ShloMosaic Idealize.ShloMosaic.ValueIdx Cert.ReferenceIdeal Cert.ReferenceIdeal.Gen Cert.ReferenceIdeal.ReadP

-- The mean, over the edges of type `e` into each node, of the source rows of a node table.
def agR (x1 : IVec S3x2x600000 32) (e : Fin 3) (t : Cert.Spec.Tab) : Cert.Spec.Tab :=
  Cert.KernelIdeal.Host.aggBare (F := Ideal) t (Cert.KernelIdeal.Host.edgeSrc x1 e) (Cert.KernelIdeal.Host.edgeDst x1 e)

abbrev Arr (s : Shape) : Type := FVec Ideal s .f32

theorem ext2 {f g : Arr S100000x128} (h : ∀ n d, f (ix2 n d) = g (ix2 n d)) : f = g :=
  funext fun i => by rw [eq_ix2 i]; exact h _ _

theorem wSl : ∀ e : Fin 3, S3x128x128.Slices ![e.val, 0, 0] S1x128x128 := by decide

theorem rSl {m : ℕ} (e : Fin m) : (⟨2, ![m, 128]⟩ : Shape).Slices ![e.val, 0] S1x128 :=
  ⟨rfl, fun a => match a with | ⟨0, _⟩ => e.isLt | ⟨1, _⟩ => (Nat.zero_add _).le⟩

-- Matrix `e` of a stack of three, transposed.
def wT (W : Arr S3x128x128) (e : Fin 3) : Arr S128x128 :=
  transpose S128x128 [1, 0] (shapeCast _ (extractStridedSlice S1x128x128 ![e.val, 0, 0] W (wSl e)) shapeCasts_S1x128x128_S128x128)
    transposes_S128x128_S128x128_1_0

theorem wT_apply (W : Arr S3x128x128) (e : Fin 3) (k d : Fin 128) : wT W e (ix2 k d) = W (ix3 e d k) :=
  (transpose_ix2_apply _ _ k d).trans <| (shapeCast_1ab_ab_apply _ _ d k).trans <|
    extractStridedSlice_apply _ _ _ _ _ fun a => match a with
      | ⟨0, _⟩ => rfl
      | ⟨1, _⟩ => (Nat.zero_add _).symm
      | ⟨2, _⟩ => (Nat.zero_add _).symm

-- Row `e` of a table of `m` rows, repeated over every node.
def rowB {m : ℕ} (b : Arr ⟨2, ![m, 128]⟩) (e : Fin m) : Arr S100000x128 :=
  broadcastInDim S100000x128 ![0, 1] bcast_S1x128_S100000x128_0_1 (broadcastInDim S1x128 ![1] bcast_S128_S1x128_1
    (shapeCast S128 (extractStridedSlice S1x128 ![e.val, 0] b (rSl e)) shapeCasts_S1x128_S128))

theorem rowB_apply {m : ℕ} (b : Arr ⟨2, ![m, 128]⟩) (e : Fin m) (n : Fin 100000) (d : Fin 128) :
    rowB b e (ix2 n d) = b (ix2 e d) :=
  (broadcastInDim_apply _ _ _ _ (ix2 (0 : Fin 1) d) fun a => match a with
    | ⟨0, _⟩ => (if_pos rfl).symm
    | ⟨1, _⟩ => (if_neg (show ¬(128 : ℕ) = 1 by decide)).symm).trans <|
  (broadcastInDim_apply _ _ _ _ (ix1 d) fun a => match a with
    | ⟨0, _⟩ => (if_neg (show ¬(128 : ℕ) = 1 by decide)).symm).trans <|
  (shapeCast_1a_a_apply _ _ d).trans <| slice2_axis0_apply _ _ _ _ _ _ rfl

def mm (a : Arr S100000x128) (s : Arr S128x128) : Arr S100000x128 :=
  Host.dotGeneral dot_S100000x128_S128x128_S100000x128_1_0_0_1_n_n none a s

-- A product of a node table with a square matrix, entry by entry.
theorem mm_apply (a : Arr S100000x128) (s : Arr S128x128) (n : Fin 100000) (d : Fin 128) :
    mm a s (ix2 n d) = ∑ k : Fin 128, a (ix2 n k) * s (ix2 k d) := by
  simp only [mm, Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  congr 2 <;> refine funext fun c => Fin.ext ?_
  · match c with
    | ⟨0, _⟩ => exact lhs_main_v15_0 _ _
    | ⟨1, _⟩ => exact (lhs_main_v15_1 _ _).trans hk
  · match c with
    | ⟨0, _⟩ => exact (rhs_main_v15_0 _ _).trans hk
    | ⟨1, _⟩ => exact rhs_main_v15_1 _ _

-- A constant over the node table, and over a column of one entry a node.
def full (b : BitVec 32) : Arr S100000x128 := broadcastInDim S100000x128 ![] bcast_S_S100000x128 (constant S_ .f32 b)

def col (b : BitVec 32) : Arr S100000x1 := broadcastInDim S100000x1 ![] bcast_S_S100000x1 (constant S_ .f32 b)

theorem full_apply (b : BitVec 32) (i : S100000x128.Idx) : full b i = Ideal.ofBits .f32 b :=
  broadcastInDim_scalar_apply _ _ _

theorem col_apply (b : BitVec 32) (i : S100000x1.Idx) : col b i = Ideal.ofBits .f32 b :=
  broadcastInDim_scalar_apply _ _ _

-- Each node's row summed, from zero, into a column.
def rowSum (t : Arr S100000x128) : Arr S100000x1 :=
  broadcastInDim S100000x1 ![0] bcast_S100000_S100000x1_0
    (Host.reduceAdd t (constant S_ .f32 0x00000000#32) reducesTo_S100000x128_S100000_d1 h_S_)

theorem rowSum_apply (t : Arr S100000x128) (n : Fin 100000) (u : Fin 1) : rowSum t (ix2 n u) = ∑ k : Fin 128, t (ix2 n k) := by
  refine (broadcastInDim_apply _ _ _ _ (ix1 n) fun a => match a with
    | ⟨0, _⟩ => (if_neg (show ¬(100000 : ℕ) = 1 by decide)).symm).trans ?_
  simp only [Host.reduceAdd, Ideal.hostReduceAdd_def]
  rw [Ideal.hostReduceAdd_single reducesTo_S100000x128_S100000_d1 (by decide), constant_apply, Ideal.ofBits_zero_f32, zero_add]
  exact Finset.sum_congr rfl fun k _ => congrArg t (funext fun a => Fin.ext (by match a with | ⟨0, _⟩ => rfl | ⟨1, _⟩ => rfl))

-- A column repeated along every row.
def spread (c : Arr S100000x1) : Arr S100000x128 := broadcastInDim S100000x128 ![0, 1] bcast_S100000x1_S100000x128_0_1 c

theorem spread_apply (c : Arr S100000x1) (n : Fin 100000) (d : Fin 128) : spread c (ix2 n d) = c (ix2 n (0 : Fin 1)) :=
  broadcastInDim_apply _ _ _ _ _ fun a => match a with
    | ⟨0, _⟩ => (if_neg (show ¬(100000 : ℕ) = 1 by decide)).symm
    | ⟨1, _⟩ => (if_pos rfl).symm

def projOp (x : Arr S100000x128) (W : Arr S3x128x128) (b : Arr S3x128) (e : Fin 3) : Arr S100000x128 :=
  maximumf (addf (mm x (wT W e)) (rowB b e)) (full 0x00000000#32)

theorem projOp_eq (x : Arr S100000x128) (W : Arr S3x128x128) (b : Arr S3x128) (e : Fin 3) :
    projOp x W b e = Cert.Spec.proj x W b e :=
  ext2 fun n d => by
    simp only [projOp, maximumf_apply, addf_apply, mm_apply, wT_apply, rowB_apply, full_apply, Ideal.ofBits_zero_f32]; rfl

def sageOp (agg x : Arr S100000x128) (Wl : Arr S3x128x128) (bl : Arr S3x128) (Wr : Arr S3x128x128) (e : Fin 3) : Arr S100000x128 :=
  addf (addf (mm agg (wT Wl e)) (rowB bl e)) (mm x (wT Wr e))

theorem sageOp_apply (agg x : Arr S100000x128) (Wl : Arr S3x128x128) (bl : Arr S3x128) (Wr : Arr S3x128x128) (e : Fin 3)
    (n : Fin 100000) (d : Fin 128) : sageOp agg x Wl bl Wr e (ix2 n d) = Cert.Spec.sage agg x Wl bl Wr e n d := by
  simp only [sageOp, addf_apply, mm_apply, wT_apply, rowB_apply]; rfl

-- Each row over its Euclidean norm, the norm kept above a floor.
def unitOp (s : Arr S100000x128) : Arr S100000x128 :=
  Host.divf s (spread (maximumf (Host.sqrt (rowSum (mulf s s))) (col 0x2B8CBCCC#32)))

theorem unitOp_apply (s : Arr S100000x128) (n : Fin 100000) (d : Fin 128) :
    unitOp s (ix2 n d) = Cert.Spec.unit (fun j => s (ix2 n j)) d := by
  simp only [unitOp, hostDivf_apply, spread_apply, maximumf_apply, Host.sqrt, rowSum_apply, mulf_apply, col_apply]; rfl

-- Three tables summed from zero, divided by three, clamped below by zero.
def mixOp (a b c : Arr S100000x128) : Arr S100000x128 :=
  maximumf (Host.divf (addf (addf (addf (full 0x00000000#32) a) b) c) (full 0x40400000#32)) (full 0x00000000#32)

theorem mixOp_apply (a b c : Arr S100000x128) (i : S100000x128.Idx) :
    mixOp a b c i = max (Ideal.div (a i + b i + c i) Cert.Spec.three) 0 := by
  simp only [mixOp, maximumf_apply, hostDivf_apply, addf_apply, full_apply, Ideal.ofBits_zero_f32, zero_add]; rfl

def meanOp (t : Arr S100000x128) : Arr S100000x1 := Host.divf (rowSum t) (col 0x43000000#32)

theorem meanOp_apply (t : Arr S100000x128) (n : Fin 100000) (u : Fin 1) :
    meanOp t (ix2 n u) = Cert.Spec.mean fun j => t (ix2 n j) := by
  simp only [meanOp, hostDivf_apply, rowSum_apply, col_apply]; rfl

-- Each row centred, scaled by the reciprocal root of its variance plus an offset, then row `l` of the scale and shift tables applied.
def lnOp {m : ℕ} (t : Arr S100000x128) (g be : Arr ⟨2, ![m, 128]⟩) (l : Fin m) : Arr S100000x128 :=
  addf (mulf (mulf (subf t (spread (meanOp t))) (spread (Host.rsqrt (addf
    (meanOp (mulf (subf t (spread (meanOp t))) (subf t (spread (meanOp t))))) (col 0x3727C5AC#32))))) (rowB g l)) (rowB be l)

theorem lnOp_apply {m : ℕ} (t : Arr S100000x128) (g be : Arr ⟨2, ![m, 128]⟩) (l : Fin m) (n : Fin 100000) (d : Fin 128) :
    lnOp t g be l (ix2 n d) = Cert.Spec.layerNorm (fun j => t (ix2 n j)) (fun j => g (ix2 l j)) (fun j => be (ix2 l j)) d := by
  simp only [lnOp, addf_apply, mulf_apply, subf_apply, spread_apply, Host.rsqrt, meanOp_apply, rowB_apply, col_apply]; rfl

-- The first layer as one expression in whole tables is the specification's, whatever the three aggregated tables are.
theorem layer0_eq (a : Fin 3 → Arr S100000x128) (x : Arr S100000x128) (Wl : Arr S3x128x128) (bl : Arr S3x128) (Wr : Arr S3x128x128)
    (g be : Arr S2x128) :
    lnOp (mixOp (unitOp (sageOp (a 0) x Wl bl Wr 0)) (unitOp (sageOp (a 1) x Wl bl Wr 1)) (unitOp (sageOp (a 2) x Wl bl Wr 2))) g be 0
      = Cert.Spec.layer0 a x Wl bl Wr g be :=
  ext2 fun n d => by rw [lnOp_apply]; simp only [mixOp_apply, unitOp_apply, sageOp_apply]; rfl

variable (x0 : Arr S100000x128) (x1 : IVec S3x2x600000 32) (x4 : Arr S3x128x128) (x5 : Arr S3x128) (x6 : Arr S3x128x128)
  (x7 : Arr S3x128) (x8 : Arr S3x128x128) (x12 x13 : Arr S2x128)

-- The stage after the first layer is, as written, that expression over the aggregated projections.
theorem hidden_eq : (val_main_v196 (F := Ideal) x0 x1 x4 x5 x6 x7 x8 x12 x13 : S100000x128.Idx → EReal)
    = Cert.Spec.hidden (agR x1) x0 x4 x5 x6 x7 x8 x12 x13 :=
  (layer0_eq (fun e => agR x1 e (projOp x0 x4 x5 e)) x0 x6 x7 x8 x12 x13).trans (by simp only [projOp_eq]; rfl)

end Cert.ReferenceIdeal.SpecR

end
-- ==== Proof.RefSpec1.lean ====
import proofs.«429923_j72335839199437_1_alg».proof.Proof.RefSpec0

noncomputable section

open scoped BigOperators

namespace Cert.ReferenceIdeal.SpecR

open Idealize.ShloMosaic Idealize.ShloMosaic.ValueIdx Cert.ReferenceIdeal Cert.ReferenceIdeal.Gen Cert.ReferenceIdeal.ReadP

-- The second layer as one expression in whole tables is the specification's: the first layer's without the rows' normalisation.
theorem layer1_eq (a : Fin 3 → Arr S100000x128) (x : Arr S100000x128) (Wl : Arr S3x128x128) (bl : Arr S3x128) (Wr : Arr S3x128x128)
    (g be : Arr S2x128) :
    lnOp (mixOp (sageOp (a 0) x Wl bl Wr 0) (sageOp (a 1) x Wl bl Wr 1) (sageOp (a 2) x Wl bl Wr 2)) g be 1
      = Cert.Spec.layer1 a x Wl bl Wr g be :=
  ext2 fun n d => by rw [lnOp_apply]; simp only [mixOp_apply, sageOp_apply]; rfl

variable (x0 : Arr S100000x128) (x1 : IVec S3x2x600000 32) (x4 : Arr S3x128x128) (x5 : Arr S3x128) (x6 : Arr S3x128x128)
  (x7 : Arr S3x128) (x8 x9 : Arr S3x128x128) (x10 : Arr S3x128) (x11 : Arr S3x128x128) (x12 x13 : Arr S2x128)

-- The result is, as written, that expression over the aggregated hidden features.
theorem result_eq :
    (val_main_v339 (F := Ideal) x0 x1 x4 x5 x6 x7 x8 x9 x10 x11 x12 x13 : S100000x128.Idx → EReal)
      = Cert.Spec.result (agR x1) x0 x4 x5 x6 x7 x8 x9 x10 x11 x12 x13 :=
  (layer1_eq (fun e => agR x1 e (val_main_v196 (F := Ideal) x0 x1 x4 x5 x6 x7 x8 x12 x13)) _ x9 x10 x11 x12 x13).trans
    (by rw [hidden_eq]; rfl)

end Cert.ReferenceIdeal.SpecR

end
-- ==== Proof.Algebraic.lean ====
import proofs.«429923_j72335839199437_1_alg».proof.Defs
import proofs.«429923_j72335839199437_1_alg».proof.Proof.KIRun
import proofs.«429923_j72335839199437_1_alg».proof.Proof.KIResult
import proofs.«429923_j72335839199437_1_alg».proof.Proof.RefRun
import proofs.«429923_j72335839199437_1_alg».proof.Proof.RefSpec1
import proofs.«429923_j72335839199437_1_alg».proof.Proof.Gen.Pre_finite_inputs

noncomputable section

namespace Cert.Proof.Value

open Idealize.ShloMosaic Idealize.ShloMosaic.TcCoe Idealize.SL.Sem

theorem agR_eq_agB (m : (ℓ : Loc Cert.KernelIdeal.nD Cert.KernelIdeal.τ Cert.KernelIdeal.sig) → Buf (Elt Ideal) ℓ)
    (c : Dev Cert.KernelIdeal.nD) :
    Cert.ReferenceIdeal.SpecR.agR (m ((c.tc : Thread Cert.KernelIdeal.nD Cert.KernelIdeal.τ).loc Cert.KernelIdeal.main_arg1)) = Cert.KernelIdeal.Val.Asm.agB m c := rfl

-- Both runs end at the specification's result of the arguments they share, and leave the arguments as they were.
theorem algebraic : Cert.algebraic_KernelIdeal_ReferenceIdeal := by
  intro m ρ m' ρ' hpre hagree
  refine ⟨fun c => (Cert.Spec.result (Cert.KernelIdeal.Val.Asm.agB m c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)) :
      Cert.KernelIdeal.S100000x128.Idx → EReal), ?_, ?_⟩
  · exact (θ_run Cert.KernelIdeal.defs _ _).mono
      (fun r h c => ⟨(h c).1.trans (Cert.KernelIdeal.Val.Asm.result_value_bare m c hpre), (h c).2⟩)
      (Cert.KernelIdeal.RunH.run_result (F := Ideal) m ρ)
  · refine (θ_run Cert.ReferenceIdeal.defs _ _).mono (fun r h c => ⟨(h c).1.trans ?_, (h c).2⟩)
      (Cert.ReferenceIdeal.RunH.run (F := Ideal) m' ρ')
    refine (Cert.ReferenceIdeal.SpecR.result_eq _ _ _ _ _ _ _ _ _ _ _ _).trans ?_
    obtain ⟨h0, h1, -, -, h4, h5, h6, h7, h8, h9, h10, h11, h12, h13⟩ := hagree c
    rw [h0, h1, h4, h5, h6, h7, h8, h9, h10, h11, h12, h13, agR_eq_agB]

end Cert.Proof.Value

end
-- ==== Proof.lean ====
import proofs.«429923_j72335839199437_1_alg».proof.Defs
import proofs.«429923_j72335839199437_1_alg».proof.Proof.Gen.Kernel
import proofs.«429923_j72335839199437_1_alg».proof.Proof.Gen.KernelIdeal
import proofs.«429923_j72335839199437_1_alg».proof.Proof.Gen.ReferenceIdeal
import proofs.«429923_j72335839199437_1_alg».proof.Proof.Gen.Pre_finite_inputs
import proofs.«429923_j72335839199437_1_alg».proof.Proof.KRun
import proofs.«429923_j72335839199437_1_alg».proof.Proof.KIRun
import proofs.«429923_j72335839199437_1_alg».proof.Proof.RefRun
import proofs.«429923_j72335839199437_1_alg».proof.Proof.Algebraic
import Idealize.ShloMosaic.Adequacy
import Idealize.ShloMosaic.Init

noncomputable section

namespace Cert.Proof

open Idealize.ShloMosaic Idealize.SL.Sem

theorem frame_kernel : Cert.frame_Kernel := fun m ρ _ => Cert.Kernel.RunH.frame (F := Bits) m ρ

theorem frame_kernelIdeal : Cert.frame_KernelIdeal := fun m ρ _ => Cert.KernelIdeal.RunH.frame (F := Ideal) m ρ

theorem frame_reference : Cert.frame_ReferenceIdeal := fun m ρ _ =>
  (θ_run Cert.ReferenceIdeal.defs _ _).mono (fun _ h c => (h c).2) (Cert.ReferenceIdeal.RunH.run (F := Ideal) m ρ)

theorem preserves : Cert.preserves_Kernel_KernelIdeal := trivial

-- Each program runs to its end with its arguments unchanged, and at the extended reals the two results are one function of the arguments.
theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, Cert.Proof.Value.algebraic⟩

end Cert.Proof

end
